-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v12)) (v3 : (c : Dev Cert.KernelIdeal.nD) → Buf (Elt Ideal) ((c.tc : Thread Cert.KernelIdeal.nD Cert.KernelIdeal.τ).loc Cert.KernelIdeal.main_v11)) (v4 : (c : Dev Cert.KernelIdeal.nD) → Buf (Elt Ideal) ((c.tc : Thread Cert.KernelIdeal.nD Cert.KernelIdeal.τ).loc Cert.KernelIdeal.main_v15_0)) (v5 : (c : Dev Cert.KernelIdeal.nD) → Buf (Elt Ideal) ((c.tc : Thread Cert.KernelIdeal.nD Cert.KernelIdeal.τ).loc Cert.KernelIdeal.main_v15_3)) (v6 : (c : Dev Cert.KernelIdeal.nD) → Buf (Elt Ideal) ((c.tc : Thread Cert.KernelIdeal.nD Cert.KernelIdeal.τ).loc Cert.KernelIdeal.main_v15_1)) (v7 : (c : Dev Cert.KernelIdeal.nD) → Buf (Elt Ideal) ((c.tc : Thread Cert.KernelIdeal.nD Cert.KernelIdeal.τ).loc Cert.KernelIdeal.main_v15_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_v11) = v3 c
          ∧ r.2.mem ((c.tc : Thread Cert.KernelIdeal.nD Cert.KernelIdeal.τ).loc Cert.KernelIdeal.main_v15_0) = v4 c
          ∧ r.2.mem ((c.tc : Thread Cert.KernelIdeal.nD Cert.KernelIdeal.τ).loc Cert.KernelIdeal.main_v15_3) = v5 c
          ∧ r.2.mem ((c.tc : Thread Cert.KernelIdeal.nD Cert.KernelIdeal.τ).loc Cert.KernelIdeal.main_v15_1) = v6 c
          ∧ r.2.mem ((c.tc : Thread Cert.KernelIdeal.nD Cert.KernelIdeal.τ).loc Cert.KernelIdeal.main_v15_2) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_v13) = v3 c
          ∧ r.2.mem ((c.tc : Thread Cert.ReferenceIdeal.nD Cert.ReferenceIdeal.τ).loc Cert.ReferenceIdeal.main_v50) = v4 c
          ∧ r.2.mem ((c.tc : Thread Cert.ReferenceIdeal.nD Cert.ReferenceIdeal.τ).loc Cert.ReferenceIdeal.main_v74) = v5 c
          ∧ r.2.mem ((c.tc : Thread Cert.ReferenceIdeal.nD Cert.ReferenceIdeal.τ).loc Cert.ReferenceIdeal.main_v56) = v6 c
          ∧ r.2.mem ((c.tc : Thread Cert.ReferenceIdeal.nD Cert.ReferenceIdeal.τ).loc Cert.ReferenceIdeal.main_v62) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2000 : Shape := ⟨2, ![4096, 2000]⟩
abbrev S4096x4096 : Shape := ⟨2, ![4096, 4096]⟩
abbrev S2000x512 : Shape := ⟨2, ![2000, 512]⟩
abbrev S512x128 : Shape := ⟨2, ![512, 128]⟩
abbrev S128x512 : Shape := ⟨2, ![128, 512]⟩
abbrev S512 : Shape := ⟨1, ![512]⟩
abbrev S512x2000 : Shape := ⟨2, ![512, 2000]⟩
abbrev S2000 : Shape := ⟨1, ![2000]⟩
abbrev S_ : Shape := ⟨0, ![]⟩

class Facts : Prop where
  bcast_S_S4096x2000 : S_.BroadcastsInDim S4096x2000 (![] : Fin 0 → Fin S4096x2000.rank)
  reducesTo_S4096x2000_S_d0_1 : S4096x2000.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S2000x512 : S_.BroadcastsInDim S2000x512 (![] : Fin 0 → Fin S2000x512.rank)
  reducesTo_S2000x512_S_d0_1 : S2000x512.ReducesTo [0, 1] S_
  bcast_S_S512x128 : S_.BroadcastsInDim S512x128 (![] : Fin 0 → Fin S512x128.rank)
  reducesTo_S512x128_S_d0_1 : S512x128.ReducesTo [0, 1] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x2000 : S_.BroadcastsInDim S512x2000 (![] : Fin 0 → Fin S512x2000.rank)
  reducesTo_S512x2000_S_d0_1 : S512x2000.ReducesTo [0, 1] S_
  bcast_S_S2000 : S_.BroadcastsInDim S2000 (![] : Fin 0 → Fin S2000.rank)
  reducesTo_S2000_S_d0 : S2000.ReducesTo [0] S_

variable [Facts]

def fn_part4 {F : FTy → Type} [FloatOps F] (main_arg14 : FVec F S2000 .f32) (main_v63 : IVec S_ 1) (main_v67 : IVec S_ 1) : IVec S_ 1 :=
  let main_v68 : IVec S_ 1 := andi main_v63 main_v67
  let main_v69 : FVec F S2000 .f32 := Host.absf main_arg14
  let main_cst_26 : FVec F S_ .f32 := constant S_ .f32 0x7F800000#32
  let main_v70 : FVec F S2000 .f32 := broadcastInDim S2000 ![] bcast_S_S2000 main_cst_26
  let main_v71 : IVec S2000 1 := cmpf .olt main_v69 main_v70
  let main_c_27 : IVec S_ 1 := constantI S_ 1 1#1
  let main_v72 : IVec S_ 1 := (fun x v => Host.reduce IntOp.andi x v reducesTo_S2000_S_d0 h_S_) main_v71 main_c_27
  let main_v73 : IVec S_ 1 := andi main_v68 main_v72
  main_v73

def fn_part3 {F : FTy → Type} [FloatOps F] (main_arg11 : FVec F S512x2000 .f32) (main_arg12 : FVec F S2000 .f32) (main_arg13 : FVec F S2000 .f32) (main_arg14 : FVec F S2000 .f32) (main_v48 : IVec S_ 1) (main_v49 : FVec F S2000 .f32) (main_v50 : FVec F S2000 .f32) : IVec S_ 1 :=
  let main_v51 : IVec S2000 1 := cmpf .olt main_v49 main_v50
  let main_c_19 : IVec S_ 1 := constantI S_ 1 1#1
  let main_v52 : IVec S_ 1 := (fun x v => Host.reduce IntOp.andi x v reducesTo_S2000_S_d0 h_S_) main_v51 main_c_19
  let main_v53 : IVec S_ 1 := andi main_v48 main_v52
  let main_v54 : FVec F S512x2000 .f32 := Host.absf main_arg11
  let main_cst_20 : FVec F S_ .f32 := constant S_ .f32 0x7F800000#32
  let main_v55 : FVec F S512x2000 .f32 := broadcastInDim S512x2000 ![] bcast_S_S512x2000 main_cst_20
  let main_v56 : IVec S512x2000 1 := cmpf .olt main_v54 main_v55
  let main_c_21 : IVec S_ 1 := constantI S_ 1 1#1
  let main_v57 : IVec S_ 1 := (fun x v => Host.reduce IntOp.andi x v reducesTo_S512x2000_S_d0_1 h_S_) main_v56 main_c_21
  let main_v58 : IVec S_ 1 := andi main_v53 main_v57
  let main_v59 : FVec F S2000 .f32 := Host.absf main_arg12
  let main_cst_22 : FVec F S_ .f32 := constant S_ .f32 0x7F800000#32
  let main_v60 : FVec F S2000 .f32 := broadcastInDim S2000 ![] bcast_S_S2000 main_cst_22
  let main_v61 : IVec S2000 1 := cmpf .olt main_v59 main_v60
  let main_c_23 : IVec S_ 1 := constantI S_ 1 1#1
  let main_v62 : IVec S_ 1 := (fun x v => Host.reduce IntOp.andi x v reducesTo_S2000_S_d0 h_S_) main_v61 main_c_23
  let main_v63 : IVec S_ 1 := andi main_v58 main_v62
  let main_v64 : FVec F S2000 .f32 := Host.absf main_arg13
  let main_cst_24 : FVec F S_ .f32 := constant S_ .f32 0x7F800000#32
  let main_v65 : FVec F S2000 .f32 := broadcastInDim S2000 ![] bcast_S_S2000 main_cst_24
  let main_v66 : IVec S2000 1 := cmpf .olt main_v64 main_v65
  let main_c_25 : IVec S_ 1 := constantI S_ 1 1#1
  let main_v67 : IVec S_ 1 := (fun x v => Host.reduce IntOp.andi x v reducesTo_S2000_S_d0 h_S_) main_v66 main_c_25
  fn_part4 (F := F) main_arg14 main_v63 main_v67

def fn_part2 {F : FTy → Type} [FloatOps F] (main_arg7 : FVec F S512 .f32) (main_arg8 : FVec F S512 .f32) (main_arg9 : FVec F S512x2000 .f32) (main_arg10 : FVec F S2000 .f32) (main_arg11 : FVec F S512x2000 .f32) (main_arg12 : FVec F S2000 .f32) (main_arg13 : FVec F S2000 .f32) (main_arg14 : FVec F S2000 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x2000 .f32 := Host.absf main_arg9
  let main_cst_16 : FVec F S_ .f32 := constant S_ .f32 0x7F800000#32
  let main_v45 : FVec F S512x2000 .f32 := broadcastInDim S512x2000 ![] bcast_S_S512x2000 main_cst_16
  let main_v46 : IVec S512x2000 1 := cmpf .olt main_v44 main_v45
  let main_c_17 : IVec S_ 1 := constantI S_ 1 1#1
  let main_v47 : IVec S_ 1 := (fun x v => Host.reduce IntOp.andi x v reducesTo_S512x2000_S_d0_1 h_S_) main_v46 main_c_17
  let main_v48 : IVec S_ 1 := andi main_v43 main_v47
  let main_v49 : FVec F S2000 .f32 := Host.absf main_arg10
  let main_cst_18 : FVec F S_ .f32 := constant S_ .f32 0x7F800000#32
  let main_v50 : FVec F S2000 .f32 := broadcastInDim S2000 ![] bcast_S_S2000 main_cst_18
  fn_part3 (F := F) main_arg11 main_arg12 main_arg13 main_arg14 main_v48 main_v49 main_v50

def fn_part1 {F : FTy → Type} [FloatOps F] (main_arg4 : FVec F S512x128 .f32) (main_arg5 : FVec F S128x512 .f32) (main_arg6 : FVec F S512 .f32) (main_arg7 : FVec F S512 .f32) (main_arg8 : FVec F S512 .f32) (main_arg9 : FVec F S512x2000 .f32) (main_arg10 : FVec F S2000 .f32) (main_arg11 : FVec F S512x2000 .f32) (main_arg12 : FVec F S2000 .f32) (main_arg13 : FVec F S2000 .f32) (main_arg14 : FVec F S2000 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S512x128 .f32 := Host.absf main_arg4
  let main_cst_6 : FVec F S_ .f32 := constant S_ .f32 0x7F800000#32
  let main_v20 : FVec F S512x128 .f32 := broadcastInDim S512x128 ![] bcast_S_S512x128 main_cst_6
  let main_v21 : IVec S512x128 1 := cmpf .olt main_v19 main_v20
  let main_c_7 : IVec S_ 1 := constantI S_ 1 1#1
  let main_v22 : IVec S_ 1 := (fun x v => Host.reduce IntOp.andi x v reducesTo_S512x128_S_d0_1 h_S_) main_v21 main_c_7
  let main_v23 : IVec S_ 1 := andi main_v18 main_v22
  let main_v24 : FVec F S128x512 .f32 := Host.absf main_arg5
  let main_cst_8 : FVec F S_ .f32 := constant S_ .f32 0x7F800000#32
  let main_v25 : FVec F S128x512 .f32 := broadcastInDim S128x512 ![] bcast_S_S128x512 main_cst_8
  let main_v26 : IVec S128x512 1 := cmpf .olt main_v24 main_v25
  let main_c_9 : IVec S_ 1 := constantI S_ 1 1#1
  let main_v27 : IVec S_ 1 := (fun x v => Host.reduce IntOp.andi x v reducesTo_S128x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4096x2000 .f32) (main_arg1 : FVec F S4096x4096 .f32) (main_arg2 : FVec F S2000x512 .f32) (main_arg3 : FVec F S512x128 .f32) (main_arg4 : FVec F S512x128 .f32) (main_arg5 : FVec F S128x512 .f32) (main_arg6 : FVec F S512 .f32) (main_arg7 : FVec F S512 .f32) (main_arg8 : FVec F S512 .f32) (main_arg9 : FVec F S512x2000 .f32) (main_arg10 : FVec F S2000 .f32) (main_arg11 : FVec F S512x2000 .f32) (main_arg12 : FVec F S2000 .f32) (main_arg13 : FVec F S2000 .f32) (main_arg14 : FVec F S2000 .f32) : IVec S_ 1 :=
  let main_v0 : FVec F S4096x2000 .f32 := Host.absf main_arg0
  let main_cst : FVec F S_ .f32 := constant S_ .f32 0x7F800000#32
  let main_v1 : FVec F S4096x2000 .f32 := broadcastInDim S4096x2000 ![] bcast_S_S4096x2000 main_cst
  let main_v2 : IVec S4096x2000 1 := cmpf .olt main_v0 main_v1
  let main_c : IVec S_ 1 := constantI S_ 1 1#1
  let main_v3 : IVec S_ 1 := (fun x v => Host.reduce IntOp.andi x v reducesTo_S4096x2000_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S2000x512 .f32 := Host.absf main_arg2
  let main_cst_2 : FVec F S_ .f32 := constant S_ .f32 0x7F800000#32
  let main_v10 : FVec F S2000x512 .f32 := broadcastInDim S2000x512 ![] bcast_S_S2000x512 main_cst_2
  let main_v11 : IVec S2000x512 1 := cmpf .olt main_v9 main_v10
  let main_c_3 : IVec S_ 1 := constantI S_ 1 1#1
  let main_v12 : IVec S_ 1 := (fun x v => Host.reduce IntOp.andi x v reducesTo_S2000x512_S_d0_1 h_S_) main_v11 main_c_3
  let main_v13 : IVec S_ 1 := andi main_v8 main_v12
  let main_v14 : FVec F S512x128 .f32 := Host.absf main_arg3
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4096x2000 : Shape := ⟨2, ![4096, 2000]⟩
abbrev S4096x4096 : Shape := ⟨2, ![4096, 4096]⟩
abbrev S2000x512 : Shape := ⟨2, ![2000, 512]⟩
abbrev S512x128 : Shape := ⟨2, ![512, 128]⟩
abbrev S128x512 : Shape := ⟨2, ![128, 512]⟩
abbrev S512 : Shape := ⟨1, ![512]⟩
abbrev S512x2000 : Shape := ⟨2, ![512, 2000]⟩
abbrev S2000 : Shape := ⟨1, ![2000]⟩
abbrev S512x256 : Shape := ⟨2, ![512, 256]⟩
abbrev S1x512 : Shape := ⟨2, ![1, 512]⟩
abbrev S1x2000 : Shape := ⟨2, ![1, 2000]⟩
abbrev S4096x512 : Shape := ⟨2, ![4096, 512]⟩
abbrev S512x512 : Shape := ⟨2, ![512, 512]⟩
abbrev S4096x256 : Shape := ⟨2, ![4096, 256]⟩
abbrev S512x4096 : Shape := ⟨2, ![512, 4096]⟩
abbrev S8x512 : Shape := ⟨2, ![8, 512]⟩
abbrev S6x512 : Shape := ⟨2, ![6, 512]⟩
abbrev S4096x128 : Shape := ⟨2, ![4096, 128]⟩
abbrev S128x4096 : Shape := ⟨2, ![128, 4096]⟩
abbrev S1024x128 : Shape := ⟨2, ![1024, 128]⟩
abbrev S128x2048 : Shape := ⟨2, ![128, 2048]⟩
abbrev S1024x2048 : Shape := ⟨2, ![1024, 2048]⟩
abbrev S256x512 : Shape := ⟨2, ![256, 512]⟩
abbrev S256x2000 : Shape := ⟨2, ![256, 2000]⟩

abbrev nBuf : Space → Nat
  | .hbm => 36
  | .vmem => 46
  | .smem => 0
  | _ => 0

abbrev bufTy : (tb : Table) → Fin (tcTables nBuf tb) → BufTy
  | .hbm, ⟨0, _⟩ => ⟨S4096x2000, .f32⟩
  | .hbm, ⟨1, _⟩ => ⟨S4096x4096, .f32⟩
  | .hbm, ⟨2, _⟩ => ⟨S2000x512, .f32⟩
  | .hbm, ⟨3, _⟩ => ⟨S512x128, .f32⟩
  | .hbm, ⟨4, _⟩ => ⟨S512x128, .f32⟩
  | .hbm, ⟨5, _⟩ => ⟨S128x512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S512x2000, .f32⟩
  | .hbm, ⟨10, _⟩ => ⟨S2000, .f32⟩
  | .hbm, ⟨11, _⟩ => ⟨S512x2000, .f32⟩
  | .hbm, ⟨12, _⟩ => ⟨S2000, .f32⟩
  | .hbm, ⟨13, _⟩ => ⟨S2000, .f32⟩
  | .hbm, ⟨14, _⟩ => ⟨S2000, .f32⟩
  | .hbm, ⟨15, _⟩ => ⟨S512x256, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S1x2000, .f32⟩
  | .hbm, ⟨20, _⟩ => ⟨S1x2000, .f32⟩
  | .hbm, ⟨21, _⟩ => ⟨S1x2000, .f32⟩
  | .hbm, ⟨22, _⟩ => ⟨S1x2000, .f32⟩
  | .hbm, ⟨23, _⟩ => ⟨S4096x512, .f32⟩
  | .hbm, ⟨24, _⟩ => ⟨S4096x256, .f32⟩
  | .hbm, ⟨25, _⟩ => ⟨S4096x256, .f32⟩
  | .hbm, ⟨26, _⟩ => ⟨S4096x512, .f32⟩
  | .hbm, ⟨27, _⟩ => ⟨S8x512, .f32⟩
  | .hbm, ⟨28, _⟩ => ⟨S4096x128, .f32⟩
  | .hbm, ⟨29, _⟩ => ⟨S4096x128, .f32⟩
  | .hbm, ⟨30, _⟩ => ⟨S128x4096, .f32⟩
  | .hbm, ⟨31, _⟩ => ⟨S4096x4096, .f32⟩
  | .hbm, ⟨32, _⟩ => ⟨S4096x512, .f32⟩
  | .hbm, ⟨33, _⟩ => ⟨S4096x2000, .f32⟩
  | .hbm, ⟨34, _⟩ => ⟨S4096x2000, .f32⟩
  | .hbm, ⟨35, _⟩ => ⟨S4096x2000, .f32⟩
  | .local _ .vmem, ⟨0, _⟩ => ⟨S512x2000, .f32⟩
  | .local _ .vmem, ⟨1, _⟩ => ⟨S512x2000, .f32⟩
  | .local _ .vmem, ⟨2, _⟩ => ⟨S2000x512, .f32⟩
  | .local _ .vmem, ⟨3, _⟩ => ⟨S512x512, .f32⟩
  | .local _ .vmem, ⟨4, _⟩ => ⟨S512x512, .f32⟩
  | .local _ .vmem, ⟨5, _⟩ => ⟨S512x4096, .f32⟩
  | .local _ .vmem, ⟨6, _⟩ => ⟨S512x4096, .f32⟩
  | .local _ .vmem, ⟨7, _⟩ => ⟨S4096x512, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x4096, .f32⟩
  | .local _ .vmem, ⟨12, _⟩ => ⟨S512x4096, .f32⟩
  | .local _ .vmem, ⟨13, _⟩ => ⟨S4096x256, .f32⟩
  | .local _ .vmem, ⟨14, _⟩ => ⟨S128x512, .f32⟩
  | .local _ .vmem, ⟨15, _⟩ => ⟨S1x512, .f32⟩
  | .local _ .vmem, ⟨16, _⟩ => ⟨S512x256, .f32⟩
  | .local _ .vmem, ⟨17, _⟩ => ⟨S512x256, .f32⟩
  | .local _ .vmem, ⟨18, _⟩ => ⟨S512x512, .f32⟩
  | .local _ .vmem, ⟨19, _⟩ => ⟨S512x512, .f32⟩
  | .local _ .vmem, ⟨20, _⟩ => ⟨S8x512, .f32⟩
  | .local _ .vmem, ⟨21, _⟩ => ⟨S1024x128, .f32⟩
  | .local _ .vmem, ⟨22, _⟩ => ⟨S1024x128, .f32⟩
  | .local _ .vmem, ⟨23, _⟩ => ⟨S128x2048, .f32⟩
  | .local _ .vmem, ⟨24, _⟩ => ⟨S128x2048, .f32⟩
  | .local _ .vmem, ⟨25, _⟩ => ⟨S1024x2048, .f32⟩
  | .local _ .vmem, ⟨26, _⟩ => ⟨S1024x2048, .f32⟩
  | .local _ .vmem, ⟨27, _⟩ => ⟨S256x512, .f32⟩
  | .local _ .vmem, ⟨28, _⟩ => ⟨S256x512, .f32⟩
  | .local _ .vmem, ⟨29, _⟩ => ⟨S8x512, .f32⟩
  | .local _ .vmem, ⟨30, _⟩ => ⟨S1x512, .f32⟩
  | .local _ .vmem, ⟨31, _⟩ => ⟨S1x512, .f32⟩
  | .local _ .vmem, ⟨32, _⟩ => ⟨S512x2000, .f32⟩
  | .local _ .vmem, ⟨33, _⟩ => ⟨S1x2000, .f32⟩
  | .local _ .vmem, ⟨34, _⟩ => ⟨S512x2000, .f32⟩
  | .local _ .vmem, ⟨35, _⟩ => ⟨S1x2000, .f32⟩
  | .local _ .vmem, ⟨36, _⟩ => ⟨S1x2000, .f32⟩
  | .local _ .vmem, ⟨37, _⟩ => ⟨S1x2000, .f32⟩
  | .local _ .vmem, ⟨38, _⟩ => ⟨S256x512, .f32⟩
  | .local _ .vmem, ⟨39, _⟩ => ⟨S256x512, .f32⟩
  | .local _ .vmem, ⟨40, _⟩ => ⟨S256x2000, .f32⟩
  | .local _ .vmem, ⟨41, _⟩ => ⟨S256x2000, .f32⟩
  | .local _ .vmem, ⟨42, _⟩ => ⟨S256x2000, .f32⟩
  | .local _ .vmem, ⟨43, _⟩ => ⟨S256x2000, .f32⟩
  | .local _ .vmem, ⟨44, _⟩ => ⟨S256x2000, .f32⟩
  | .local _ .vmem, ⟨45, _⟩ => ⟨S256x2000, .f32⟩
  | _, _ => ⟨S4096x2000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10_0 : Ref sig .tc := ⟨.hbm, 25, rfl⟩
abbrev main_v10_1 : Ref sig .tc := ⟨.hbm, 26, rfl⟩
abbrev main_v10_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15_0 : Ref sig .tc := ⟨.hbm, 32, rfl⟩
abbrev main_v15_1 : Ref sig .tc := ⟨.hbm, 33, rfl⟩
abbrev main_v15_2 : Ref sig .tc := ⟨.hbm, 34, rfl⟩
abbrev main_v15_3 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc2_stg5_0 : Ref sig .tc := ⟨.vmem, 18, rfl⟩
abbrev cc2_stg5_1 : Ref sig .tc := ⟨.vmem, 19, rfl⟩
abbrev cc2_stg6_0 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg4_0 : Ref sig .tc := ⟨.vmem, 32, rfl⟩
abbrev cc4_stg5_0 : Ref sig .tc := ⟨.vmem, 33, rfl⟩
abbrev cc4_stg6_0 : Ref sig .tc := ⟨.vmem, 34, rfl⟩
abbrev cc4_stg7_0 : Ref sig .tc := ⟨.vmem, 35, rfl⟩
abbrev cc4_stg8_0 : Ref sig .tc := ⟨.vmem, 36, rfl⟩
abbrev cc4_stg9_0 : Ref sig .tc := ⟨.vmem, 37, rfl⟩
abbrev cc4_stg10_0 : Ref sig .tc := ⟨.vmem, 38, rfl⟩
abbrev cc4_stg10_1 : Ref sig .tc := ⟨.vmem, 39, rfl⟩
abbrev cc4_stg11_0 : Ref sig .tc := ⟨.vmem, 40, rfl⟩
abbrev cc4_stg11_1 : Ref sig .tc := ⟨.vmem, 41, rfl⟩
abbrev cc4_stg12_0 : Ref sig .tc := ⟨.vmem, 42, rfl⟩
abbrev cc4_stg12_1 : Ref sig .tc := ⟨.vmem, 43, rfl⟩
abbrev cc4_stg13_0 : Ref sig .tc := ⟨.vmem, 44, rfl⟩
abbrev cc4_stg13_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17
abbrev cc2_sem5_0 : DmaSem sig := 18
abbrev cc2_sem5_1 : DmaSem sig := 19
abbrev cc2_sem6_0 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc4_sem0_0 : DmaSem sig := 27
abbrev cc4_sem0_1 : DmaSem sig := 28
abbrev cc4_sem1_0 : DmaSem sig := 29
abbrev cc4_sem2_0 : DmaSem sig := 30
abbrev cc4_sem3_0 : DmaSem sig := 31
abbrev cc4_sem4_0 : DmaSem sig := 32
abbrev cc4_sem5_0 : DmaSem sig := 33
abbrev cc4_sem6_0 : DmaSem sig := 34
abbrev cc4_sem7_0 : DmaSem sig := 35
abbrev cc4_sem8_0 : DmaSem sig := 36
abbrev cc4_sem9_0 : DmaSem sig := 37
abbrev cc4_sem10_0 : DmaSem sig := 38
abbrev cc4_sem10_1 : DmaSem sig := 39
abbrev cc4_sem11_0 : DmaSem sig := 40
abbrev cc4_sem11_1 : DmaSem sig := 41
abbrev cc4_sem12_0 : DmaSem sig := 42
abbrev cc4_sem12_1 : DmaSem sig := 43
abbrev cc4_sem13_0 : DmaSem sig := 44
abbrev cc4_sem13_1 : DmaSem sig := 45

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2000x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def k2_cond1 (i : grid2.Coords) : BitVec 1 :=
  let arg0 : BitVec 32 := BitVec.ofNat 32 (i 0).val
  let c0_i32 : BitVec 32 := 0#32
  let v25 : BitVec 1 := Scalar.cmpi .eq arg0 c0_i32
  let v26 : BitVec 32 := Scalar.extui v25
  let c0_i32_17 : BitVec 32 := 0#32
  let v27 : BitVec 1 := Scalar.cmpi .ne v26 c0_i32_17
  v27

def k2_cond2 (i : grid2.Coords) : BitVec 1 :=
  let arg0 : BitVec 32 := BitVec.ofNat 32 (i 0).val
  let c0_i32_18 : BitVec 32 := 0#32
  let v28 : BitVec 1 := Scalar.cmpi .sgt arg0 c0_i32_18
  let v29 : BitVec 32 := Scalar.extui v28
  let c0_i32_19 : BitVec 32 := 0#32
  let v30 : BitVec 1 := Scalar.cmpi .ne v29 c0_i32_19
  v30

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S8x512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨2, ![4, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S128x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_11 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_12 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_13 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S8x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x512 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S512x2000 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x2000 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S512x2000 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x2000 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x2000 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x2000 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 2 → Memref sig .tc .vmem S256x512 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]

abbrev stage4_11 : Fin 2 → Memref sig .tc .vmem S256x2000 .f32 := fun | 0 => Memref.whole cc4_stg11_0 | 1 => Memref.whole cc4_stg11_1 | ⟨_ + 2, h⟩ => absurd h (Nat.not_lt.2 (Nat.le_add_left _ _))
abbrev sem4_11 : Fin 2 → DmaSem sig := fun | 0 => cc4_sem11_0 | 1 => cc4_sem11_1 | ⟨_ + 2, h⟩ => absurd h (Nat.not_lt.2 (Nat.le_add_left _ _))
abbrev reads4_11 : Fin grid4.rank → Bool := ![true]

abbrev stage4_12 : Fin 2 → Memref sig .tc .vmem S256x2000 .f32 := fun | 0 => Memref.whole cc4_stg12_0 | 1 => Memref.whole cc4_stg12_1 | ⟨_ + 2, h⟩ => absurd h (Nat.not_lt.2 (Nat.le_add_left _ _))
abbrev sem4_12 : Fin 2 → DmaSem sig := fun | 0 => cc4_sem12_0 | 1 => cc4_sem12_1 | ⟨_ + 2, h⟩ => absurd h (Nat.not_lt.2 (Nat.le_add_left _ _))
abbrev reads4_12 : Fin grid4.rank → Bool := ![true]

abbrev stage4_13 : Fin 2 → Memref sig .tc .vmem S256x2000 .f32 := fun | 0 => Memref.whole cc4_stg13_0 | 1 => Memref.whole cc4_stg13_1 | ⟨_ + 2, h⟩ => absurd h (Nat.not_lt.2 (Nat.le_add_left _ _))
abbrev sem4_13 : Fin 2 → DmaSem sig := fun | 0 => cc4_sem13_0 | 1 => cc4_sem13_1 | ⟨_ + 2, h⟩ => absurd h (Nat.not_lt.2 (Nat.le_add_left _ _))
abbrev reads4_13 : Fin grid4.rank → Bool := ![true]

class Facts₀ : Prop where
  concatenates_S512x128_S512x128_S512x256_d1 : Shape.Concatenates [S512x128, S512x128] S512x256 1
  shapeCasts_S512_S1x512 : S512.ShapeCasts S1x512
  shapeCasts_S2000_S1x2000 : S2000.ShapeCasts S1x2000
  inb_S512x2000_S512x2000_0_0 : ∀ a, (![0, 0] : Fin 2 → Nat) a + S512x2000.size a ≤ S512x2000.size a
  h_S512x2000 : 0 < S512x2000.numel
  inb_S2000x512_S2000x512_0_0 : ∀ a, (![0, 0] : Fin 2 → Nat) a + S2000x512.size a ≤ S2000x512.size a
  h_S2000x512 : 0 < S2000x512.numel
  inb_S512x512_S512x512_0_0 : ∀ a, (![0, 0] : Fin 2 → Nat) a + S512x512.size a ≤ S512x512.size a
  h_S512x512 : 0 < S512x512.numel
  inb_S512x4096_S512x4096_0_0 : ∀ a, (![0, 0] : Fin 2 → Nat) a + S512x4096.size a ≤ S512x4096.size a
  h_S512x4096 : 0 < S512x4096.numel
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  slices_S512x256_o0_0_S512x128 : S512x256.Slices ![0, 0] S512x128
  inb_S128x512_S128x512_0_0 : ∀ a, (![0, 0] : Fin 2 → Nat) a + S128x512.size a ≤ S128x512.size a
  h_S128x512 : 0 < S128x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  reduces_S512x512_S512 : S512x512.Reduces [0] S512
  concatenates_S1x512_S1x512_S6x512_S8x512_d0 : Shape.Concatenates [S1x512, S1x512, S6x512] S8x512 0
  inb_S8x512_S8x512_0_0 : ∀ a, (![0, 0] : Fin 2 → Nat) a + S8x512.size a ≤ S8x512.size a
  h_S8x512 : 0 < S8x512.numel
  shapeCasts_S8x512_S8x512 : S8x512.ShapeCasts S8x512
  slices_S4096x256_S4096x128_0_0 : S4096x256.Slices ![0, 0] S4096x128
  slices_S4096x256_S4096x128_0_128 : S4096x256.Slices ![0, 128] S4096x128
  transposes_S4096x128_S128x4096_1_0 : S4096x128.Transposes [1, 0] S128x4096
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S1024x2048_S1024x2048_0_0 : ∀ a, (![0, 0] : Fin 2 → Nat) a + S1024x2048.size a ≤ S1024x2048.size a
  h_S1024x2048 : 0 < S1024x2048.numel
  inb_S8x512_S1x512_0_0 : ∀ a, (![0, 0] : Fin 2 → Nat) a + S1x512.size a ≤ S8x512.size a
  inb_S8x512_S1x512_1_0 : ∀ a, (![1, 0] : Fin 2 → Nat) a + S1x512.size a ≤ S8x512.size a
  inb_S256x512_S256x512_0_0 : ∀ a, (![0, 0] : Fin 2 → Nat) a + S256x512.size a ≤ S256x512.size a
  h_S256x512 : 0 < S256x512.numel
  shapeCasts_S256x512_S256x512 : S256x512.ShapeCasts S256x512
  broadcasts_S1x512_S256x512 : S1x512.Broadcasts S256x512
  inb_S1x2000_S1x2000_0_0 : ∀ a, (![0, 0] : Fin 2 → Nat) a + S1x2000.size a ≤ S1x2000.size a
  h_S1x2000 : 0 < S1x2000.numel
  shapeCasts_S1x2000_S1x2000 : S1x2000.ShapeCasts S1x2000
  broadcasts_S1x2000_S256x2000 : S1x2000.Broadcasts S256x2000
  inb_S256x2000_S256x2000_0_0 : ∀ a, (![0, 0] : Fin 2 → Nat) a + S256x2000.size a ≤ S256x2000.size a
  h_S256x2000 : 0 < S256x2000.numel
  dot_S512x2000_S2000x512_S512x512_1_0_0_1_n_n_wf : DotDims.WF S512x2000 S2000x512 S512x512 [1] [0] [0] [1] [] []
  dot_S512x4096_S4096x512_S512x512_1_0_0_1_n_n_wf : DotDims.WF S512x4096 S4096x512 S512x512 [1] [0] [0] [1] [] []
  dot_S512x512_S512x256_S512x256_1_0_0_1_n_n_wf : DotDims.WF S512x512 S512x256 S512x256 [1] [0] [0] [1] [] []
  dot_S512x4096_S4096x256_S512x256_1_0_0_1_n_n_wf : DotDims.WF S512x4096 S4096x256 S512x256 [1] [0] [0] [1] [] []
  dot_S512x128_S128x512_S512x512_1_0_0_1_n_n_wf : DotDims.WF S512x128 S128x512 S512x512 [1] [0] [0] [1] [] []
  dot_S1024x128_S128x2048_S1024x2048_1_0_0_1_n_n_wf : DotDims.WF S1024x128 S128x2048 S1024x2048 [1] [0] [0] [1] [] []
  dot_S256x512_S512x2000_S256x2000_1_0_0_1_n_n_wf : DotDims.WF S256x512 S512x2000 S256x2000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2000.size a ≤ S4096x2000.size a
  hwx0_0 : ∀ i : grid0.Coords, EltTy.bits .f32 = 32 ∨ (Rect.block (s := S4096x2000) S512x2000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2000x512.size a ≤ S2000x512.size a
  hwx0_1 : ∀ i : grid0.Coords, EltTy.bits .f32 = 32 ∨ (Rect.block (s := S2000x512) S2000x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x512.size a
  hwx0_2 : ∀ i : grid0.Coords, EltTy.bits .f32 = 32 ∨ (Rect.block (s := S4096x512) S512x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x512.size a ≤ S4096x512.size a
  hwx1_1 : ∀ i : grid1.Coords, EltTy.bits .f32 = 32 ∨ (Rect.block (s := S4096x512) S4096x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x256.size a ≤ S512x256.size a
  hwx1_2 : ∀ i : grid1.Coords, EltTy.bits .f32 = 32 ∨ (Rect.block (s := S512x256) S512x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S4096x256.size a
  hwx1_3 : ∀ i : grid1.Coords, EltTy.bits .f32 = 32 ∨ (Rect.block (s := S4096x256) S512x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x4096.size a ≤ S4096x4096.size a
  hwx2_0 : ∀ i : grid2.Coords, EltTy.bits .f32 = 32 ∨ (Rect.block (s := S4096x4096) S512x4096.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x256.size a ≤ S4096x256.size a
  hwx2_1 : ∀ i : grid2.Coords, EltTy.bits .f32 = 32 ∨ (Rect.block (s := S4096x256) S4096x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x512.size a ≤ S128x512.size a
  hwx2_2 : ∀ i : grid2.Coords, EltTy.bits .f32 = 32 ∨ (Rect.block (s := S128x512) S128x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x512.size a
  hwx2_3 : ∀ i : grid2.Coords, EltTy.bits .f32 = 32 ∨ (Rect.block (s := S1x512) S1x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x256.size a ≤ S4096x256.size a
  hwx2_4 : ∀ i : grid2.Coords, EltTy.bits .f32 = 32 ∨ (Rect.block (s := S4096x256) S512x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x512.size a ≤ S4096x512.size a
  hwx2_5 : ∀ i : grid2.Coords, EltTy.bits .f32 = 32 ∨ (Rect.block (s := S4096x512) S512x512.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S8x512.size a ≤ S8x512.size a
  hwx2_6 : ∀ i : grid2.Coords, EltTy.bits .f32 = 32 ∨ (Rect.block (s := S8x512) S8x512.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x128.size a ≤ S4096x128.size a
  hwx3_0 : ∀ i : grid3.Coords, EltTy.bits .f32 = 32 ∨ (Rect.block (s := S4096x128) S1024x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S128x2048.size a ≤ S128x4096.size a
  hwx3_1 : ∀ i : grid3.Coords, EltTy.bits .f32 = 32 ∨ (Rect.block (s := S128x4096) S128x2048.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x2048.size a ≤ S4096x4096.size a
  hwx3_2 : ∀ i : grid3.Coords, EltTy.bits .f32 = 32 ∨ (Rect.block (s := S4096x4096) S1024x2048.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S256x512.size a ≤ S4096x512.size a
  hwx4_0 : ∀ i : grid4.Coords, EltTy.bits .f32 = 32 ∨ (Rect.block (s := S4096x512) S256x512.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S8x512.size a ≤ S8x512.size a
  hwx4_1 : ∀ i : grid4.Coords, EltTy.bits .f32 = 32 ∨ (Rect.block (s := S8x512) S8x512.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x512.size a ≤ S1x512.size a
  hwx4_2 : ∀ i : grid4.Coords, EltTy.bits .f32 = 32 ∨ (Rect.block (s := S1x512) S1x512.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x512.size a ≤ S1x512.size a
  hwx4_3 : ∀ i : grid4.Coords, EltTy.bits .f32 = 32 ∨ (Rect.block (s := S1x512) S1x512.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S512x2000.size a ≤ S512x2000.size a
  hwx4_4 : ∀ i : grid4.Coords, EltTy.bits .f32 = 32 ∨ (Rect.block (s := S512x2000) S512x2000.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x2000.size a ≤ S1x2000.size a
  hwx4_5 : ∀ i : grid4.Coords, EltTy.bits .f32 = 32 ∨ (Rect.block (s := S1x2000) S1x2000.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S512x2000.size a ≤ S512x2000.size a
  hwx4_6 : ∀ i : grid4.Coords, EltTy.bits .f32 = 32 ∨ (Rect.block (s := S512x2000) S512x2000.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x2000.size a ≤ S1x2000.size a
  hwx4_7 : ∀ i : grid4.Coords, EltTy.bits .f32 = 32 ∨ (Rect.block (s := S1x2000) S1x2000.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x2000.size a ≤ S1x2000.size a
  hwx4_8 : ∀ i : grid4.Coords, EltTy.bits .f32 = 32 ∨ (Rect.block (s := S1x2000) S1x2000.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x2000.size a ≤ S1x2000.size a
  hwx4_9 : ∀ i : grid4.Coords, EltTy.bits .f32 = 32 ∨ (Rect.block (s := S1x2000) S1x2000.size (cc4_transform_9 i) (hinb4_9 i)).WholeWords (EltTy.packing .f32)
  hstage4_10 : ∀ j, (stage4_10 j).IsWhole
  nbuf4_10 : grid4.bufCount reads4_10 false = 2
  hreads4_10 : ∀ i i' : grid4.Coords, (∀ a, reads4_10 a = true → i a = i' a) → cc4_transform_10 i = cc4_transform_10 i'
  hinb4_10 : ∀ (i : grid4.Coords) a, (cc4_transform_10 i a + 1) * S256x512.size a ≤ S4096x512.size a
  hwx4_10 : ∀ i : grid4.Coords, EltTy.bits .f32 = 32 ∨ (Rect.block (s := S4096x512) S256x512.size (cc4_transform_10 i) (hinb4_10 i)).WholeWords (EltTy.packing .f32)
  hstage4_11 : ∀ j, (stage4_11 j).IsWhole
  nbuf4_11 : grid4.bufCount reads4_11 false = 2
  hreads4_11 : ∀ i i' : grid4.Coords, (∀ a, reads4_11 a = true → i a = i' a) → cc4_transform_11 i = cc4_transform_11 i'
  hinb4_11 : ∀ (i : grid4.Coords) a, (cc4_transform_11 i a + 1) * S256x2000.size a ≤ S4096x2000.size a
  hwx4_11 : ∀ i : grid4.Coords, EltTy.bits .f32 = 32 ∨ (Rect.block (s := S4096x2000) S256x2000.size (cc4_transform_11 i) (hinb4_11 i)).WholeWords (EltTy.packing .f32)
  hstage4_12 : ∀ j, (stage4_12 j).IsWhole
  nbuf4_12 : grid4.bufCount reads4_12 false = 2
  hreads4_12 : ∀ i i' : grid4.Coords, (∀ a, reads4_12 a = true → i a = i' a) → cc4_transform_12 i = cc4_transform_12 i'
  hinb4_12 : ∀ (i : grid4.Coords) a, (cc4_transform_12 i a + 1) * S256x2000.size a ≤ S4096x2000.size a
  hwx4_12 : ∀ i : grid4.Coords, EltTy.bits .f32 = 32 ∨ (Rect.block (s := S4096x2000) S256x2000.size (cc4_transform_12 i) (hinb4_12 i)).WholeWords (EltTy.packing .f32)
  hstage4_13 : ∀ j, (stage4_13 j).IsWhole
  nbuf4_13 : grid4.bufCount reads4_13 false = 2
  hreads4_13 : ∀ i i' : grid4.Coords, (∀ a, reads4_13 a = true → i a = i' a) → cc4_transform_13 i = cc4_transform_13 i'
  hinb4_13 : ∀ (i : grid4.Coords) a, (cc4_transform_13 i a + 1) * S256x2000.size a ≤ S4096x2000.size a
  hwx4_13 : ∀ i : grid4.Coords, EltTy.bits .f32 = 32 ∨ (Rect.block (s := S4096x2000) S256x2000.size (cc4_transform_13 i) (hinb4_13 i)).WholeWords (EltTy.packing .f32)

variable [Facts₀]

def dot_S512x2000_S2000x512_S512x512_1_0_0_1_n_n : DotDims S512x2000 S2000x512 S512x512 where
  lhsContracting := [1]
  rhsContracting := [0]
  lhsNonContracting := [0]
  rhsNonContracting := [1]
  lhsBatch := []
  rhsBatch := []
  wf := dot_S512x2000_S2000x512_S512x512_1_0_0_1_n_n_wf
def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf
def dot_S1024x128_S128x2048_S1024x2048_1_0_0_1_n_n : DotDims S1024x128 S128x2048 S1024x2048 where
  lhsContracting := [1]
  rhsContracting := [0]
  lhsNonContracting := [0]
  rhsNonContracting := [1]
  lhsBatch := []
  rhsBatch := []
  wf := dot_S1024x128_S128x2048_S1024x2048_1_0_0_1_n_n_wf
def dot_S256x512_S512x2000_S256x2000_1_0_0_1_n_n : DotDims S256x512 S512x2000 S256x2000 where
  lhsContracting := [1]
  rhsContracting := [0]
  lhsNonContracting := [0]
  rhsNonContracting := [1]
  lhsBatch := []
  rhsBatch := []
  wf := dot_S256x512_S512x2000_S256x2000_1_0_0_1_n_n_wf

abbrev win0_0 : Pipeline.Window sig grid0 :=
  Pipeline.Window.ofSpec (Memref.whole main_arg0) S512x2000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2000x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S4096x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S512x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S512x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S4096x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v1) S1x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v10_0) S512x256.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v10_1) S512x512.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v10_2) S8x512.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond1 i == 1#1) && !(k2_cond2 i == 1#1) | ⟨_ + 7, h⟩ => absurd h (Nat.not_lt.2 (Nat.le_add_left _ _))

abbrev win3_0 : Pipeline.Window sig grid3 :=
  Pipeline.Window.ofSpec (Memref.whole main_v11) S1024x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v13) S128x2048.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v14) S1024x2048.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v10_1) S256x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v10_2) S8x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v2) S1x512.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v3) S1x512.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg9) S512x2000.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v4) S1x2000.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg11) S512x2000.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v5) S1x2000.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v6) S1x2000.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v7) S1x2000.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v15_0) S256x512.size cc4_transform_10 reads4_10 true false 2 stage4_10 sem4_10
    hrank4 hreads4_10 hinb4_10 nbuf4_10 (Memref.isWhole_whole _) hwx4_10 hstage4_10

abbrev win4_11 : Pipeline.Window sig grid4 :=
  Pipeline.Window.ofSpec (Memref.whole main_v15_1) S256x2000.size cc4_transform_11 reads4_11 true false 2 stage4_11 sem4_11
    hrank4 hreads4_11 hinb4_11 nbuf4_11 (Memref.isWhole_whole _) hwx4_11 hstage4_11

abbrev win4_12 : Pipeline.Window sig grid4 :=
  Pipeline.Window.ofSpec (Memref.whole main_v15_2) S256x2000.size cc4_transform_12 reads4_12 true false 2 stage4_12 sem4_12
    hrank4 hreads4_12 hinb4_12 nbuf4_12 (Memref.isWhole_whole _) hwx4_12 hstage4_12

abbrev win4_13 : Pipeline.Window sig grid4 :=
  Pipeline.Window.ofSpec (Memref.whole main_v15_3) S256x2000.size cc4_transform_13 reads4_13 true false 2 stage4_13 sem4_13
    hrank4 hreads4_13 hinb4_13 nbuf4_13 (Memref.isWhole_whole _) hwx4_13 hstage4_13

abbrev win4 : Fin 14 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | 13 => win4_13 | ⟨_ + 14, h⟩ => absurd h (Nat.not_lt.2 (Nat.le_add_left _ _))
abbrev spec4 : Fin 14 → Pipeline.WinSpec sig grid4.rank := fun w => (win4 w).toWinSpec

class Facts : Prop extends Facts₀ where

variable [Facts]
-- ==== ReferenceIdeal.lean ====
abbrev S4096x2000 : Shape := ⟨2, ![4096, 2000]⟩
abbrev S4096x4096 : Shape := ⟨2, ![4096, 4096]⟩
abbrev S2000x512 : Shape := ⟨2, ![2000, 512]⟩
abbrev S512x128 : Shape := ⟨2, ![512, 128]⟩
abbrev S128x512 : Shape := ⟨2, ![128, 512]⟩
abbrev S512 : Shape := ⟨1, ![512]⟩
abbrev S512x2000 : Shape := ⟨2, ![512, 2000]⟩
abbrev S2000 : Shape := ⟨1, ![2000]⟩
abbrev S4096x512 : Shape := ⟨2, ![4096, 512]⟩
abbrev S_ : Shape := ⟨0, ![]⟩
abbrev S4096x128 : Shape := ⟨2, ![4096, 128]⟩
abbrev S128x4096 : Shape := ⟨2, ![128, 4096]⟩
abbrev S1x512 : Shape := ⟨2, ![1, 512]⟩
abbrev S1x2000 : Shape := ⟨2, ![1, 2000]⟩

abbrev nBuf : Space → Nat
  | .hbm => 152
  | .vmem => 0
  | .smem => 0
  | _ => 0

abbrev hbmTy0_0 (i : Nat) : BufTy := match i % 128 with
  | 0 => ⟨S4096x2000, .f32⟩
  | 1 => ⟨S4096x4096, .f32⟩
  | 2 => ⟨S2000x512, .f32⟩
  | 3 => ⟨S512x128, .f32⟩
  | 4 => ⟨S512x128, .f32⟩
  | 5 => ⟨S128x512, .f32⟩
  | 6 => ⟨S512, .f32⟩
  | 7 => ⟨S512, .f32⟩
  | 8 => ⟨S512, .f32⟩
  | 9 => ⟨S512x2000, .f32⟩
  | 10 => ⟨S2000, .f32⟩
  | 11 => ⟨S512x2000, .f32⟩
  | 12 => ⟨S2000, .f32⟩
  | 13 => ⟨S2000, .f32⟩
  | 14 => ⟨S2000, .f32⟩
  | 15 => ⟨S4096x512, .f32⟩
  | 16 => ⟨S4096x512, .f32⟩
  | 17 => ⟨S_, .f32⟩
  | 18 => ⟨S4096x512, .f32⟩
  | 19 => ⟨S4096x512, .i1⟩
  | 20 => ⟨S_, .f32⟩
  | 21 => ⟨S4096x512, .f32⟩
  | 22 => ⟨S4096x512, .f32⟩
  | 23 => ⟨S4096x512, .f32⟩
  | 24 => ⟨S4096x128, .f32⟩
  | 25 => ⟨S4096x128, .f32⟩
  | 26 => ⟨S_, .f32⟩
  | 27 => ⟨S4096x128, .f32⟩
  | 28 => ⟨S4096x128, .i1⟩
  | 29 => ⟨S_, .f32⟩
  | 30 => ⟨S4096x128, .f32⟩
  | 31 => ⟨S4096x128, .f32⟩
  | 32 => ⟨S4096x128, .f32⟩
  | 33 => ⟨S4096x128, .f32⟩
  | 34 => ⟨S4096x128, .f32⟩
  | 35 => ⟨S_, .f32⟩
  | 36 => ⟨S4096x128, .f32⟩
  | 37 => ⟨S4096x128, .i1⟩
  | 38 => ⟨S_, .f32⟩
  | 39 => ⟨S4096x128, .f32⟩
  | 40 => ⟨S4096x128, .f32⟩
  | 41 => ⟨S4096x128, .f32⟩
  | 42 => ⟨S128x4096, .f32⟩
  | 43 => ⟨S4096x4096, .f32⟩
  | 44 => ⟨S4096x512, .f32⟩
  | 45 => ⟨S1x512, .f32⟩
  | 46 => ⟨S4096x512, .f32⟩
  | 47 => ⟨S4096x512, .f32⟩
  | 48 => ⟨S_, .f32⟩
  | 49 => ⟨S512, .f32⟩
  | 50 => ⟨S_, .f32⟩
  | 51 => ⟨S512, .f32⟩
  | 52 => ⟨S512, .f32⟩
  | 53 => ⟨S_, .i32⟩
  | 54 => ⟨S_, .f32⟩
  | 55 => ⟨S512, .f32⟩
  | 56 => ⟨S1x512, .f32⟩
  | 57 => ⟨S_, .f32⟩
  | 58 => ⟨S1x512, .f32⟩
  | 59 => ⟨S1x512, .f32⟩
  | 60 => ⟨S4096x512, .f32⟩
  | 61 => ⟨S4096x512, .f32⟩
  | 62 => ⟨S4096x512, .f32⟩
  | 63 => ⟨S_, .f32⟩
  | 64 => ⟨S_, .f32⟩
  | 65 => ⟨S_, .f32⟩
  | 66 => ⟨S_, .f32⟩
  | 67 => ⟨S512, .f32⟩
  | 68 => ⟨S512, .f32⟩
  | 69 => ⟨S512, .f32⟩
  | 70 => ⟨S_, .f32⟩
  | 71 => ⟨S_, .i1⟩
  | 72 => ⟨S_, .f32⟩
  | 73 => ⟨S_, .f32⟩
  | 74 => ⟨S512, .f32⟩
  | 75 => ⟨S512, .f32⟩
  | 76 => ⟨S1x512, .f32⟩
  | 77 => ⟨S4096x512, .f32⟩
  | 78 => ⟨S4096x512, .f32⟩
  | 79 => ⟨S_, .f32⟩
  | 80 => ⟨S512, .f32⟩
  | 81 => ⟨S512, .f32⟩
  | 82 => ⟨S512, .f32⟩
  | 83 => ⟨S1x512, .f32⟩
  | 84 => ⟨S4096x512, .f32⟩
  | 85 => ⟨S4096x512, .f32⟩
  | 86 => ⟨S1x512, .f32⟩
  | 87 => ⟨S4096x512, .f32⟩
  | 88 => ⟨S4096x512, .f32⟩
  | 89 => ⟨S1x512, .f32⟩
  | 90 => ⟨S4096x512, .f32⟩
  | 91 => ⟨S4096x512, .f32⟩
  | 92 => ⟨S_, .f32⟩
  | 93 => ⟨S4096x512, .f32⟩
  | 94 => ⟨S4096x512, .i1⟩
  | 95 => ⟨S_, .f32⟩
  | 96 => ⟨S4096x512, .f32⟩
  | 97 => ⟨S4096x512, .f32⟩
  | 98 => ⟨S4096x512, .f32⟩
  | 99 => ⟨S4096x2000, .f32⟩
  | 100 => ⟨S1x2000, .f32⟩
  | 101 => ⟨S4096x2000, .f32⟩
  | 102 => ⟨S4096x2000, .f32⟩
  | 103 => ⟨S_, .f32⟩
  | 104 => ⟨S4096x2000, .f32⟩
  | 105 => ⟨S4096x2000, .f32⟩
  | 106 => ⟨S4096x2000, .f32⟩
  | 107 => ⟨S4096x2000, .f32⟩
  | 108 => ⟨S4096x2000, .i1⟩
  | 109 => ⟨S4096x2000, .f32⟩
  | 110 => ⟨S4096x2000, .f32⟩
  | 111 => ⟨S4096x2000, .f32⟩
  | 112 => ⟨S4096x2000, .f32⟩
  | 113 => ⟨S4096x2000, .f32⟩
  | 114 => ⟨S4096x2000, .f32⟩
  | 115 => ⟨S4096x2000, .f32⟩
  | 116 => ⟨S4096x2000, .f32⟩
  | 117 => ⟨S_, .f32⟩
  | 118 => ⟨S_, .f32⟩
  | 119 => ⟨S_, .f32⟩
  | 120 => ⟨S4096x2000, .f32⟩
  | 121 => ⟨S4096x2000, .f32⟩
  | 122 => ⟨S_, .f32⟩
  | 123 => ⟨S4096x2000, .f32⟩
  | 124 => ⟨S4096x2000, .f32⟩
  | 125 => ⟨S4096x2000, .f32⟩
  | 126 => ⟨S1x2000, .f32⟩
  | 127 => ⟨S4096x2000, .f32⟩
  | _ => ⟨S4096x2000, .f32⟩

abbrev hbmTy0_1 (i : Nat) : BufTy := match i % 128 with
  | 0 => ⟨S4096x2000, .f32⟩
  | 1 => ⟨S4096x2000, .f32⟩
  | 2 => ⟨S_, .f32⟩
  | 3 => ⟨S_, .f32⟩
  | 4 => ⟨S_, .f32⟩
  | 5 => ⟨S4096x2000, .f32⟩
  | 6 => ⟨S4096x2000, .f32⟩
  | 7 => ⟨S_, .f32⟩
  | 8 => ⟨S4096x2000, .f32⟩
  | 9 => ⟨S4096x2000, .f32⟩
  | 10 => ⟨S1x2000, .f32⟩
  | 11 => ⟨S4096x2000, .f32⟩
  | 12 => ⟨S4096x2000, .f32⟩
  | 13 => ⟨S1x2000, .f32⟩
  | 14 => ⟨S4096x2000, .f32⟩
  | 15 => ⟨S4096x2000, .f32⟩
  | 16 => ⟨S4096x2000, .f32⟩
  | 17 => ⟨S4096x2000, .f32⟩
  | 18 => ⟨S_, .f32⟩
  | 19 => ⟨S4096x2000, .f32⟩
  | 20 => ⟨S4096x2000, .f32⟩
  | 21 => ⟨S_, .f32⟩
  | 22 => ⟨S4096x2000, .f32⟩
  | 23 => ⟨S4096x2000, .f32⟩
  | _ => ⟨S4096x2000, .f32⟩

abbrev hbmTy (i : Nat) : BufTy := match i / 128 with
  | 0 => hbmTy0_0 i
  | 1 => hbmTy0_1 i
  | _ => ⟨S4096x2000, .f32⟩

abbrev bufTy : (tb : Table) → Fin (tcTables nBuf tb) → BufTy
  | .hbm, ⟨i, _⟩ => hbmTy i
  | _, _ => ⟨S4096x2000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_1 : Ref sig .tc := ⟨.hbm, 26, rfl⟩
abbrev main_v9 : Ref sig .tc := ⟨.hbm, 27, rfl⟩
abbrev main_v10 : Ref sig .tc := ⟨.hbm, 28, rfl⟩
abbrev main_cst_2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_3 : Ref sig .tc := ⟨.hbm, 35, rfl⟩
abbrev main_v16 : Ref sig .tc := ⟨.hbm, 36, rfl⟩
abbrev main_v17 : Ref sig .tc := ⟨.hbm, 37, rfl⟩
abbrev main_cst_4 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_5 : Ref sig .tc := ⟨.hbm, 48, rfl⟩
abbrev main_v27 : Ref sig .tc := ⟨.hbm, 49, rfl⟩
abbrev main_cst_6 : Ref sig .tc := ⟨.hbm, 50, rfl⟩
abbrev main_v28 : Ref sig .tc := ⟨.hbm, 51, rfl⟩
abbrev main_v29 : Ref sig .tc := ⟨.hbm, 52, rfl⟩
abbrev main_c : Ref sig .tc := ⟨.hbm, 53, rfl⟩
abbrev main_call3_cst : Ref sig .tc := ⟨.hbm, 54, rfl⟩
abbrev main_call3_v0 : Ref sig .tc := ⟨.hbm, 55, rfl⟩
abbrev main_call3_v1 : Ref sig .tc := ⟨.hbm, 56, rfl⟩
abbrev main_call3_cst_0 : Ref sig .tc := ⟨.hbm, 57, rfl⟩
abbrev main_call3_v2 : Ref sig .tc := ⟨.hbm, 58, rfl⟩
abbrev main_call3_v3 : Ref sig .tc := ⟨.hbm, 59, rfl⟩
abbrev main_call3_v4 : Ref sig .tc := ⟨.hbm, 60, rfl⟩
abbrev main_call3_v5 : Ref sig .tc := ⟨.hbm, 61, rfl⟩
abbrev main_call3_v6 : Ref sig .tc := ⟨.hbm, 62, rfl⟩
abbrev main_call3_v7 : Ref sig .tc := ⟨.hbm, 63, rfl⟩
abbrev main_call3_cst_1 : Ref sig .tc := ⟨.hbm, 64, rfl⟩
abbrev main_call3_v8 : Ref sig .tc := ⟨.hbm, 65, rfl⟩
abbrev main_call3_cst_2 : Ref sig .tc := ⟨.hbm, 66, rfl⟩
abbrev main_call3_v9 : Ref sig .tc := ⟨.hbm, 67, rfl⟩
abbrev main_call3_v10 : Ref sig .tc := ⟨.hbm, 68, rfl⟩
abbrev main_call3_v11 : Ref sig .tc := ⟨.hbm, 69, rfl⟩
abbrev main_call3_cst_3 : Ref sig .tc := ⟨.hbm, 70, rfl⟩
abbrev main_call3_v12 : Ref sig .tc := ⟨.hbm, 71, rfl⟩
abbrev main_call3_cst_4 : Ref sig .tc := ⟨.hbm, 72, rfl⟩
abbrev main_call3_call0_v0 : Ref sig .tc := ⟨.hbm, 73, rfl⟩
abbrev main_call3_call0_v1 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_cst_7 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_cst_8 : Ref sig .tc := ⟨.hbm, 92, rfl⟩
abbrev main_v46 : Ref sig .tc := ⟨.hbm, 93, rfl⟩
abbrev main_v47 : Ref sig .tc := ⟨.hbm, 94, rfl⟩
abbrev main_cst_9 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_call5_cst : Ref sig .tc := ⟨.hbm, 103, rfl⟩
abbrev main_call5_v0 : Ref sig .tc := ⟨.hbm, 104, rfl⟩
abbrev main_call5_v1 : Ref sig .tc := ⟨.hbm, 105, rfl⟩
abbrev main_call5_v2 : Ref sig .tc := ⟨.hbm, 106, rfl⟩
abbrev main_call5_v3 : Ref sig .tc := ⟨.hbm, 107, rfl⟩
abbrev main_call5_v4 : Ref sig .tc := ⟨.hbm, 108, rfl⟩
abbrev main_call5_v5 : Ref sig .tc := ⟨.hbm, 109, rfl⟩
abbrev main_call5_v6 : Ref sig .tc := ⟨.hbm, 110, rfl⟩
abbrev main_call5_v7 : Ref sig .tc := ⟨.hbm, 111, rfl⟩
abbrev main_call5_v8 : Ref sig .tc := ⟨.hbm, 112, rfl⟩
abbrev main_call5_v9 : Ref sig .tc := ⟨.hbm, 113, rfl⟩
abbrev main_call5_v10 : Ref sig .tc := ⟨.hbm, 114, rfl⟩
abbrev main_call5_v11 : Ref sig .tc := ⟨.hbm, 115, rfl⟩
abbrev main_v55 : Ref sig .tc := ⟨.hbm, 116, rfl⟩
abbrev main_cst_10 : Ref sig .tc := ⟨.hbm, 117, rfl⟩
abbrev main_cst_11 : Ref sig .tc := ⟨.hbm, 118, rfl⟩
abbrev main_call6_v0 : Ref sig .tc := ⟨.hbm, 119, rfl⟩
abbrev main_call6_v1 : Ref sig .tc := ⟨.hbm, 120, rfl⟩
abbrev main_call6_v2 : Ref sig .tc := ⟨.hbm, 121, rfl⟩
abbrev main_call6_v3 : Ref sig .tc := ⟨.hbm, 122, rfl⟩
abbrev main_call6_v4 : Ref sig .tc := ⟨.hbm, 123, rfl⟩
abbrev main_v56 : Ref sig .tc := ⟨.hbm, 124, rfl⟩
abbrev main_v57 : Ref sig .tc := ⟨.hbm, 125, rfl⟩
abbrev main_v58 : Ref sig .tc := ⟨.hbm, 126, rfl⟩
abbrev main_v59 : Ref sig .tc := ⟨.hbm, 127, rfl⟩
abbrev main_v60 : Ref sig .tc := ⟨.hbm, 128, rfl⟩
abbrev main_v61 : Ref sig .tc := ⟨.hbm, 129, rfl⟩
abbrev main_cst_12 : Ref sig .tc := ⟨.hbm, 130, rfl⟩
abbrev main_cst_13 : Ref sig .tc := ⟨.hbm, 131, rfl⟩
abbrev main_call7_v0 : Ref sig .tc := ⟨.hbm, 132, rfl⟩
abbrev main_call7_v1 : Ref sig .tc := ⟨.hbm, 133, rfl⟩
abbrev main_call7_v2 : Ref sig .tc := ⟨.hbm, 134, rfl⟩
abbrev main_call7_v3 : Ref sig .tc := ⟨.hbm, 135, rfl⟩
abbrev main_call7_v4 : Ref sig .tc := ⟨.hbm, 136, rfl⟩
abbrev main_v62 : Ref sig .tc := ⟨.hbm, 137, rfl⟩
abbrev main_v63 : Ref sig .tc := ⟨.hbm, 138, rfl⟩
abbrev main_v64 : Ref sig .tc := ⟨.hbm, 139, rfl⟩
abbrev main_v65 : Ref sig .tc := ⟨.hbm, 140, rfl⟩
abbrev main_v66 : Ref sig .tc := ⟨.hbm, 141, rfl⟩
abbrev main_v67 : Ref sig .tc := ⟨.hbm, 142, rfl⟩
abbrev main_v68 : Ref sig .tc := ⟨.hbm, 143, rfl⟩
abbrev main_v69 : Ref sig .tc := ⟨.hbm, 144, rfl⟩
abbrev main_v70 : Ref sig .tc := ⟨.hbm, 145, rfl⟩
abbrev main_cst_14 : Ref sig .tc := ⟨.hbm, 146, rfl⟩
abbrev main_v71 : Ref sig .tc := ⟨.hbm, 147, rfl⟩
abbrev main_v72 : Ref sig .tc := ⟨.hbm, 148, rfl⟩
abbrev main_cst_15 : Ref sig .tc := ⟨.hbm, 149, rfl⟩
abbrev main_v73 : Ref sig .tc := ⟨.hbm, 150, rfl⟩
abbrev main_v74 : Ref sig .tc := ⟨.hbm, 151, rfl⟩

abbrev nD : Nat := 1
abbrev τ : Topo := Topo.v7x

variable {F : FTy → Type} [FloatOps F]

class Facts₀ : Prop where
  bcast_S_S4096x512 : S_.BroadcastsInDim S4096x512 (![] : Fin 0 → Fin S4096x512.rank)
  bcast_S_S4096x128 : S_.BroadcastsInDim S4096x128 (![] : Fin 0 → Fin S4096x128.rank)
  transposes_S4096x128_S128x4096_1_0 : S4096x128.Transposes [1, 0] S128x4096
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  reducesTo_S4096x512_S512_d0 : S4096x512.ReducesTo [0] S512
  h_S_ : 0 < S_.numel
  bcast_S_S512 : S_.BroadcastsInDim S512 (![] : Fin 0 → Fin S512.rank)
  bcast_S_S1x512 : S_.BroadcastsInDim S1x512 (![] : Fin 0 → Fin S1x512.rank)
  bcast_S2000_S1x2000_1 : S2000.BroadcastsInDim S1x2000 (![1] : Fin 1 → Fin S1x2000.rank)
  bcast_S1x2000_S4096x2000_0_1 : S1x2000.BroadcastsInDim S4096x2000 (![0, 1] : Fin 2 → Fin S4096x2000.rank)
  bcast_S_S4096x2000 : S_.BroadcastsInDim S4096x2000 (![] : Fin 0 → Fin S4096x2000.rank)
  dot_S4096x2000_S2000x512_S4096x512_1_0_0_1_n_n_wf : DotDims.WF S4096x2000 S2000x512 S4096x512 [1] [0] [0] [1] [] []
  dot_S4096x4096_S4096x512_S4096x512_1_0_0_1_n_n_wf : DotDims.WF S4096x4096 S4096x512 S4096x512 [1] [0] [0] [1] [] []
  dot_S4096x512_S512x128_S4096x128_1_0_0_1_n_n_wf : DotDims.WF S4096x512 S512x128 S4096x128 [1] [0] [0] [1] [] []
  dot_S4096x4096_S4096x128_S4096x128_1_0_0_1_n_n_wf : DotDims.WF S4096x4096 S4096x128 S4096x128 [1] [0] [0] [1] [] []
  dot_S4096x128_S128x4096_S4096x4096_1_0_0_1_n_n_wf : DotDims.WF S4096x128 S128x4096 S4096x4096 [1] [0] [0] [1] [] []
  dot_S4096x128_S128x512_S4096x512_1_0_0_1_n_n_wf : DotDims.WF S4096x128 S128x512 S4096x512 [1] [0] [0] [1] [] []
  dot_S4096x512_S512x2000_S4096x2000_1_0_0_1_n_n_wf : DotDims.WF S4096x512 S512x2000 S4096x2000 [1] [0] [0] [1] [] []

variable [Facts₀]

def dot_S4096x2000_S2000x512_S4096x512_1_0_0_1_n_n : DotDims S4096x2000 S2000x512 S4096x512 where
  lhsContracting := [1]
  rhsContracting := [0]
  lhsNonContracting := [0]
  rhsNonContracting := [1]
  lhsBatch := []
  rhsBatch := []
  wf := dot_S4096x2000_S2000x512_S4096x512_1_0_0_1_n_n_wf
def dot_S4096x4096_S4096x512_S4096x512_1_0_0_1_n_n : DotDims S4096x4096 S4096x512 S4096x512 where
  lhsContracting := [1]
  rhsContracting := [0]
  lhsNonContracting := [0]
  rhsNonContracting := [1]
  lhsBatch := []
  rhsBatch := []
  wf := dot_S4096x4096_S4096x512_S4096x512_1_0_0_1_n_n_wf
def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf
def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf
def dot_S4096x128_S128x512_S4096x512_1_0_0_1_n_n : DotDims S4096x128 S128x512 S4096x512 where
  lhsContracting := [1]
  rhsContracting := [0]
  lhsNonContracting := [0]
  rhsNonContracting := [1]
  lhsBatch := []
  rhsBatch := []
  wf := dot_S4096x128_S128x512_S4096x512_1_0_0_1_n_n_wf
def dot_S4096x512_S512x2000_S4096x2000_1_0_0_1_n_n : DotDims S4096x512 S512x2000 S4096x2000 where
  lhsContracting := [1]
  rhsContracting := [0]
  lhsNonContracting := [0]
  rhsNonContracting := [1]
  lhsBatch := []
  rhsBatch := []
  wf := dot_S4096x512_S512x2000_S4096x2000_1_0_0_1_n_n_wf

class Facts : Prop extends Facts₀ where

variable [Facts]
-- ==== Proof.K.Reg0Defs.lean ====
import proofs.«141970_g2173253451805_cont_8to1_1923_2_alg».proof.Proof.Gen.Kernel.Launch
import proofs.«141970_g2173253451805_cont_8to1_1923_2_alg».proof.Proof.Gen.Kernel.Skeleton
import proofs.«141970_g2173253451805_cont_8to1_1923_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S512x2000 := Rect.unit (s := S512x2000) ![0, 0] S512x2000.size inb_S512x2000_S512x2000_0_0
abbrev r0_1 : Rect S2000x512 := Rect.unit (s := S2000x512) ![0, 0] S2000x512.size inb_S2000x512_S2000x512_0_0
abbrev r0_2 : Rect S512x512 := Rect.unit (s := S512x512) ![0, 0] S512x512.size inb_S512x512_S512x512_0_0

noncomputable def out0_2 (x0 : Vec F S512x2000 .f32) (x1 : Vec F S2000x512 .f32) : Vec F S512x512 .f32 :=
  View.canon [⟨r0_2, k0_pay1 (View.ld x0 r0_0) (View.ld x1 r0_1)⟩]

noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

end Cert.Kernel.Hand

end
-- ==== Proof.K.Reg1Defs.lean ====
import proofs.«141970_g2173253451805_cont_8to1_1923_2_alg».proof.Proof.Gen.Kernel.Launch
import proofs.«141970_g2173253451805_cont_8to1_1923_2_alg».proof.Proof.Gen.Kernel.Skeleton
import proofs.«141970_g2173253451805_cont_8to1_1923_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S512x256 := Rect.unit (s := S512x256) ![0, 0] S512x256.size inb_S512x256_S512x256_0_0

noncomputable def out1_3 (x0 : Vec F S512x4096 .f32) (x1 : Vec F S4096x512 .f32) (x2 : Vec F S512x256 .f32) : Vec F S512x256 .f32 :=
  View.canon [⟨r1_0, k1_pay1 (View.ld x0 (Rect.unit (s := S512x4096) ![0, 0] S512x4096.size inb_S512x4096_S512x4096_0_0))
    (View.ld x1 (Rect.unit (s := S4096x512) ![0, 0] S4096x512.size inb_S4096x512_S4096x512_0_0))
    (View.ld x2 (Rect.unit (s := S512x256) ![0, 0] S512x256.size inb_S512x256_S512x256_0_0))⟩]

theorem cover1_3 (p0 : Vec F S512x256 .f32) (y : S512x256.Idx) :
    ∃ pc ∈ ([⟨r1_0, p0⟩] : List (View.Piece (Elt F) S512x256 .f32)), y ∈ pc.1.set :=
  View.cover_of_tiled [⟨r1_0, p0⟩] S512x256.size (by rfl) y

noncomputable def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

end Cert.Kernel.Hand

end
-- ==== Proof.K.Reg2Defs.lean ====
import proofs.«141970_g2173253451805_cont_8to1_1923_2_alg».proof.Proof.Gen.Kernel.Launch
import proofs.«141970_g2173253451805_cont_8to1_1923_2_alg».proof.Proof.Gen.Kernel.Skeleton
import proofs.«141970_g2173253451805_cont_8to1_1923_2_alg».proof.Proof.Gen.Kernel.Points
import Idealize.ShloMosaic.Lib.Pipeline.FrameBody
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S512x4096 := Rect.unit (s := S512x4096) ![0, 0] S512x4096.size inb_S512x4096_S512x4096_0_0
abbrev r2_1 : Rect S4096x256 := Rect.unit (s := S4096x256) ![0, 0] S4096x256.size inb_S4096x256_S4096x256_0_0
abbrev r2_2 : Rect S128x512 := Rect.unit (s := S128x512) ![0, 0] S128x512.size inb_S128x512_S128x512_0_0
abbrev r2_3 : Rect S1x512 := Rect.unit (s := S1x512) ![0, 0] S1x512.size inb_S1x512_S1x512_0_0
abbrev r2_4 : Rect S512x256 := Rect.unit (s := S512x256) ![0, 0] S512x256.size inb_S512x256_S512x256_0_0
abbrev r2_5 : Rect S512x512 := Rect.unit (s := S512x512) ![0, 0] S512x512.size inb_S512x512_S512x512_0_0
abbrev r2_6 : Rect S8x512 := Rect.unit (s := S8x512) ![0, 0] S8x512.size inb_S8x512_S8x512_0_0

noncomputable def out2_4 (x0 : Vec F S512x4096 .f32) (x1 : Vec F S4096x256 .f32) : Vec F S512x256 .f32 :=
  View.canon [⟨r2_4, k2_pay1 (View.ld x0 r2_0) (View.ld x1 r2_1)⟩]

noncomputable def out2_5 (x0 : Vec F S512x4096 .f32) (x1 : Vec F S4096x256 .f32) (x2 : Vec F S128x512 .f32) (x3 : Vec F S1x512 .f32) :
    Vec F S512x512 .f32 :=
  View.canon [⟨r2_5, k2_pay2 (View.ld x0 r2_0) (View.ld x1 r2_1) (View.ld x2 r2_2) (View.ld x3 r2_3)⟩]

noncomputable def upd2 (x0 : Vec F S512x4096 .f32) (x1 : Vec F S4096x256 .f32) (x2 : Vec F S128x512 .f32) (x3 : Vec F S1x512 .f32) :
    Vec F S8x512 .f32 :=
  View.canon [⟨r2_6, k2_pay3 (View.ld x0 r2_0) (View.ld x1 r2_1) (View.ld x2 r2_2) (View.ld x3 r2_3)⟩]

noncomputable def acc2 (x0 : Vec F S512x4096 .f32) (x1 : Vec F S4096x256 .f32) (x2 : Vec F S128x512 .f32) (x3 : Vec F S1x512 .f32)
    (xo : Vec F S8x512 .f32) : Vec F S8x512 .f32 :=
  View.canon [⟨r2_6, k2_pay4 (View.ld x0 r2_0) (View.ld x1 r2_1) (View.ld x2 r2_2) (View.ld x3 r2_3) (View.ld xo r2_6)⟩]

noncomputable def statsAt2 (c : Dev nD) : (n : ℕ) → n < cfg2.N → Vec F S8x512 .f32
  | 0, hn => upd2 (iblk2 V c 0 ⟨0, hn⟩) (iblk2 V c 1 ⟨0, hn⟩) (iblk2 V c 2 ⟨0, hn⟩) (iblk2 V c 3 ⟨0, hn⟩)
  | n + 1, hn => acc2 (iblk2 V c 0 ⟨n + 1, hn⟩) (iblk2 V c 1 ⟨n + 1, hn⟩) (iblk2 V c 2 ⟨n + 1, hn⟩) (iblk2 V c 3 ⟨n + 1, hn⟩)
      (statsAt2 c n (Nat.lt_of_succ_lt hn))

theorem statsAt2_zero (c : Dev nD) (hn : 0 < cfg2.N) :
    statsAt2 V c 0 hn = upd2 (iblk2 V c 0 ⟨0, hn⟩) (iblk2 V c 1 ⟨0, hn⟩) (iblk2 V c 2 ⟨0, hn⟩) (iblk2 V c 3 ⟨0, hn⟩) := rfl

theorem statsAt2_succ (c : Dev nD) (n : ℕ) (hn : n + 1 < cfg2.N) :
    statsAt2 V c (n + 1) hn = acc2 (iblk2 V c 0 ⟨n + 1, hn⟩) (iblk2 V c 1 ⟨n + 1, hn⟩) (iblk2 V c 2 ⟨n + 1, hn⟩) (iblk2 V c 3 ⟨n + 1, hn⟩)
      (statsAt2 V c n (Nat.lt_of_succ_lt hn)) := rfl

theorem hcond2_0 : ∀ t : Fin cfg2.N, k2_cond1 (grid2.coords t) = 1#1 ↔ t.val = 0 :=
  (by decide +kernel : ∀ t : Fin grid2.N, k2_cond1 (grid2.coords t) = 1#1 ↔ t.val = 0)

theorem hcond2_1 : ∀ t : Fin cfg2.N, k2_cond2 (grid2.coords t) = 1#1 ↔ t.val ≠ 0 :=
  (by decide +kernel : ∀ t : Fin grid2.N, k2_cond2 (grid2.coords t) = 1#1 ↔ t.val ≠ 0)

theorem live2_6 : ∀ i : grid2.Coords, cfg2.idle 6 i = false := by
  decide +kernel

noncomputable def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t)
    | ⟨5, _⟩ => out2_5 (iblk2 V c 0 t) (iblk2 V c 1 t) (iblk2 V c 2 t) (iblk2 V c 3 t)
    | ⟨6, _⟩ => statsAt2 V c t.val t.isLt
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) := by dsimp only [dat2]
theorem after2_5 (c : Dev nD) (t : Fin cfg2.N) :
    (dat2 V c).after 5 t = out2_5 (iblk2 V c 0 t) (iblk2 V c 1 t) (iblk2 V c 2 t) (iblk2 V c 3 t) := by dsimp only [dat2]
theorem after2_6 (c : Dev nD) (t : Fin cfg2.N) : (dat2 V c).after 6 t = statsAt2 V c t.val t.isLt := by dsimp only [dat2]

end Cert.Kernel.Hand

end
-- ==== Proof.K.Reg3Defs.lean ====
import proofs.«141970_g2173253451805_cont_8to1_1923_2_alg».proof.Proof.Gen.Kernel.Launch
import proofs.«141970_g2173253451805_cont_8to1_1923_2_alg».proof.Proof.Gen.Kernel.Skeleton
import proofs.«141970_g2173253451805_cont_8to1_1923_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S1024x128 := Rect.unit (s := S1024x128) ![0, 0] S1024x128.size inb_S1024x128_S1024x128_0_0

abbrev r3_1 : Rect S128x2048 := Rect.unit (s := S128x2048) ![0, 0] S128x2048.size inb_S128x2048_S128x2048_0_0

abbrev r3_2 : Rect S1024x2048 := Rect.unit (s := S1024x2048) ![0, 0] S1024x2048.size inb_S1024x2048_S1024x2048_0_0

noncomputable def out3_2 (x0 : Vec F S1024x128 .f32) (x1 : Vec F S128x2048 .f32) : Vec F S1024x2048 .f32 :=
  View.canon [⟨r3_2, k3_pay1 (View.ld x0 r3_0) (View.ld x1 r3_1)⟩]

theorem cover3_2 (p0 : Vec F S1024x2048 .f32) (y : S1024x2048.Idx) :
    ∃ pc ∈ ([⟨r3_2, p0⟩] : List (View.Piece (Elt F) S1024x2048 .f32)), y ∈ pc.1.set :=
  View.cover_of_tiled [⟨r3_2, p0⟩] S1024x2048.size (by rfl) y

noncomputable def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

end Cert.Kernel.Hand

end
-- ==== Proof.K.Reg4Defs.lean ====
import proofs.«141970_g2173253451805_cont_8to1_1923_2_alg».proof.Proof.Gen.Kernel.Launch
import proofs.«141970_g2173253451805_cont_8to1_1923_2_alg».proof.Proof.Gen.Kernel.Skeleton
import proofs.«141970_g2173253451805_cont_8to1_1923_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S8x512 := Rect.unit (s := S8x512) ![0, 0] S1x512.size inb_S8x512_S1x512_0_0

abbrev r4_1 : Rect S8x512 := Rect.unit (s := S8x512) ![1, 0] S1x512.size inb_S8x512_S1x512_1_0

abbrev r4_2 : Rect S256x512 := Rect.unit (s := S256x512) ![0, 0] S256x512.size inb_S256x512_S256x512_0_0

abbrev r4_3 : Rect S1x512 := Rect.unit (s := S1x512) ![0, 0] S1x512.size inb_S1x512_S1x512_0_0

abbrev r4_4 : Rect S512x2000 := Rect.unit (s := S512x2000) ![0, 0] S512x2000.size inb_S512x2000_S512x2000_0_0

abbrev r4_5 : Rect S1x2000 := Rect.unit (s := S1x2000) ![0, 0] S1x2000.size inb_S1x2000_S1x2000_0_0

abbrev r4_6 : Rect S256x2000 := Rect.unit (s := S256x2000) ![0, 0] S256x2000.size inb_S256x2000_S256x2000_0_0

noncomputable def out4_10 (x0 : Vec F S256x512 .f32) (x1 : Vec F S8x512 .f32) (x2 x3 : Vec F S1x512 .f32) : Vec F S256x512 .f32 :=
  View.canon [⟨r4_2, k4_pay2 (View.ld x1 r4_0) (View.ld x1 r4_1) (View.ld x0 r4_2) (View.ld x2 r4_3) (View.ld x3 r4_3)⟩]

noncomputable def out4_11 (x0 : Vec F S256x512 .f32) (x1 : Vec F S8x512 .f32) (x2 x3 : Vec F S1x512 .f32)
    (x4 : Vec F S512x2000 .f32) (x5 : Vec F S1x2000 .f32) : Vec F S256x2000 .f32 :=
  View.canon [⟨r4_6, k4_pay4 (k4_pay3 (View.ld x1 r4_0) (View.ld x1 r4_1) (View.ld x0 r4_2) (View.ld x2 r4_3) (View.ld x3 r4_3) (View.ld x4 r4_4)) (View.ld x5 r4_5)⟩]

noncomputable def out4_12 (x0 : Vec F S256x512 .f32) (x1 : Vec F S8x512 .f32) (x2 x3 : Vec F S1x512 .f32)
    (x6 : Vec F S512x2000 .f32) (x7 : Vec F S1x2000 .f32) : Vec F S256x2000 .f32 :=
  View.canon [⟨r4_6, k4_pay6 (k4_pay2 (View.ld x1 r4_0) (View.ld x1 r4_1) (View.ld x0 r4_2) (View.ld x2 r4_3) (View.ld x3 r4_3)) (View.ld x6 r4_4) (View.ld x7 r4_5)⟩]

noncomputable def out4_13 (x0 : Vec F S256x512 .f32) (x1 : Vec F S8x512 .f32) (x2 x3 : Vec F S1x512 .f32)
    (x6 : Vec F S512x2000 .f32) (x7 x8 x9 : Vec F S1x2000 .f32) : Vec F S256x2000 .f32 :=
  View.canon [⟨r4_6, k4_pay1 (k4_pay7 (k4_pay2 (View.ld x1 r4_0) (View.ld x1 r4_1) (View.ld x0 r4_2) (View.ld x2 r4_3) (View.ld x3 r4_3)) (View.ld x6 r4_4) (View.ld x7 r4_5) (View.ld x8 r4_5)) (View.ld x9 r4_5)⟩]

noncomputable def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => iblk4 V c 9 t
    | ⟨10, _⟩ => out4_10 (iblk4 V c 0 t) (iblk4 V c 1 t) (iblk4 V c 2 t) (iblk4 V c 3 t)
    | ⟨11, _⟩ => out4_11 (iblk4 V c 0 t) (iblk4 V c 1 t) (iblk4 V c 2 t) (iblk4 V c 3 t) (iblk4 V c 4 t) (iblk4 V c 5 t)
    | ⟨12, _⟩ => out4_12 (iblk4 V c 0 t) (iblk4 V c 1 t) (iblk4 V c 2 t) (iblk4 V c 3 t) (iblk4 V c 6 t) (iblk4 V c 7 t)
    | ⟨13, _⟩ => out4_13 (iblk4 V c 0 t) (iblk4 V c 1 t) (iblk4 V c 2 t) (iblk4 V c 3 t) (iblk4 V c 6 t) (iblk4 V c 7 t) (iblk4 V c 8 t) (iblk4 V c 9 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = iblk4 V c 9 t := by dsimp only [dat4]
theorem after4_10 (c : Dev nD) (t : Fin cfg4.N) : (dat4 V c).after 10 t = out4_10 (iblk4 V c 0 t) (iblk4 V c 1 t) (iblk4 V c 2 t) (iblk4 V c 3 t) := by dsimp only [dat4]
theorem after4_11 (c : Dev nD) (t : Fin cfg4.N) : (dat4 V c).after 11 t = out4_11 (iblk4 V c 0 t) (iblk4 V c 1 t) (iblk4 V c 2 t) (iblk4 V c 3 t) (iblk4 V c 4 t) (iblk4 V c 5 t) := by dsimp only [dat4]
theorem after4_12 (c : Dev nD) (t : Fin cfg4.N) : (dat4 V c).after 12 t = out4_12 (iblk4 V c 0 t) (iblk4 V c 1 t) (iblk4 V c 2 t) (iblk4 V c 3 t) (iblk4 V c 6 t) (iblk4 V c 7 t) := by dsimp only [dat4]
theorem after4_13 (c : Dev nD) (t : Fin cfg4.N) : (dat4 V c).after 13 t = out4_13 (iblk4 V c 0 t) (iblk4 V c 1 t) (iblk4 V c 2 t) (iblk4 V c 3 t) (iblk4 V c 6 t) (iblk4 V c 7 t) (iblk4 V c 8 t) (iblk4 V c 9 t) := by dsimp only [dat4]

end Cert.Kernel.Hand

end
-- ==== Proof.K.Fold.lean ====
import proofs.«141970_g2173253451805_cont_8to1_1923_2_alg».proof.Proof.K.Reg0Defs
import proofs.«141970_g2173253451805_cont_8to1_1923_2_alg».proof.Proof.K.Reg1Defs
import proofs.«141970_g2173253451805_cont_8to1_1923_2_alg».proof.Proof.K.Reg2Defs
import proofs.«141970_g2173253451805_cont_8to1_1923_2_alg».proof.Proof.K.Reg3Defs
import proofs.«141970_g2173253451805_cont_8to1_1923_2_alg».proof.Proof.K.Reg4Defs
import proofs.«141970_g2173253451805_cont_8to1_1923_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

section Region

variable {p : Fin 5} (d : (c : Dev nD) → Dat τ (Elt F) Unit ℕ (UR sig nD τ) ℕ (cfgs p) c) (W : Dev nD → Valuation τ sig (Elt F))

/-- What a kernel region leaves: each of its arrays at what its grid points produce, every other buffer as entered. -/
def exitW (c : Dev nD) : Valuation τ sig (Elt F) :=
  Pipeline.withArrays (cfgs p).spec c (W c) fun w => (d c).arrAt w (cfgs p).N

theorem exitW_arr (lf : Pipeline.LaunchFacts (nD := nD) (τ := τ) cfgs p) (c : Dev nD) (w : Fin (cfgs p).W) :
    exitW d W c (Proc.devRef .tc (Pipeline.arrRef (cfgs p).spec w)) = (d c).arrAt w (cfgs p).N :=
  Pipeline.withArrays_arr _ lf.win.arr_inj c _ _ w

theorem exitW_of_ne (c : Dev nD) (b : Ref sig .tc) (hb : ∀ w, Pipeline.arrRef (cfgs p).spec w ≠ b) :
    exitW d W c (Proc.devRef .tc b) = W c (Proc.devRef .tc b) :=
  Pipeline.withArrays_of_ne _ c _ _ b hb

/-- An input array is never written, and a buffer that is no array of the region is not touched. -/
theorem exitW_keep (lf : Pipeline.LaunchFacts (nD := nD) (τ := τ) cfgs p) (hA : ∀ c w, (d c).A w = W c (Proc.devRef .tc (Pipeline.arrRef (cfgs p).spec w))) (c : Dev nD) (b : Ref sig .tc)
    (hb : ∀ w, Pipeline.arrRef (cfgs p).spec w = b → ((cfgs p).win w).isOut = false) :
    exitW d W c (Proc.devRef .tc b) = W c (Proc.devRef .tc b) := by
  by_cases h : ∃ w, Pipeline.arrRef (cfgs p).spec w = b
  · obtain ⟨w, rfl⟩ := h
    exact (exitW_arr d W lf c w).trans (((d c).arrAt_in w (hb w rfl) _).trans (hA c w))
  · exact exitW_of_ne d W c b fun w e => h ⟨w, e⟩

end Region

variable (m : (ℓ : Loc nD τ sig) → Buf (Elt F) ℓ) (ρ : Dev nD → PrngReg)

abbrev rd (W : Dev nD → Valuation τ sig (Elt F)) : (c : Dev nD) → (b : Ref sig .tc) → Buf (Elt F) ((c : Thread nD τ).loc b) :=
  fun c b => W c b

abbrev W0 : Dev nD → Valuation τ sig (Elt F) := fun c b => (s₀ m ρ).mem ((c : Dev nD), b)
abbrev W1 : Dev nD → Valuation τ sig (Elt F) := fun c => StableHlo.after hostOps0 (W0 m ρ c)
abbrev V1 := rd (W1 m ρ)
def W2 : Dev nD → Valuation τ sig (Elt F) := exitW (p := 0) (dat0 (V1 m ρ)) (W1 m ρ)
abbrev V2 := rd (W2 m ρ)
def W3 : Dev nD → Valuation τ sig (Elt F) := exitW (p := 1) (dat1 (V2 m ρ)) (W2 m ρ)
abbrev V3 := rd (W3 m ρ)
def W4 : Dev nD → Valuation τ sig (Elt F) := exitW (p := 2) (dat2 (V3 m ρ)) (W3 m ρ)
abbrev W5 : Dev nD → Valuation τ sig (Elt F) := fun c => StableHlo.after hostOps3 (W4 m ρ c)
abbrev V5 := rd (W5 m ρ)
def W6 : Dev nD → Valuation τ sig (Elt F) := exitW (p := 3) (dat3 (V5 m ρ)) (W5 m ρ)
abbrev V6 := rd (W6 m ρ)
def W7 : Dev nD → Valuation τ sig (Elt F) := exitW (p := 4) (dat4 (V6 m ρ)) (W6 m ρ)

theorem W2_arr (c : Dev nD) (w : Fin cfg0.W) :
    W2 m ρ c (Proc.devRef .tc (Pipeline.arrRef spec0 w)) = (dat0 (V1 m ρ) c).arrAt w cfg0.N :=
  exitW_arr _ _ launch0 c w
theorem W3_arr (c : Dev nD) (w : Fin cfg1.W) :
    W3 m ρ c (Proc.devRef .tc (Pipeline.arrRef spec1 w)) = (dat1 (V2 m ρ) c).arrAt w cfg1.N :=
  exitW_arr _ _ launch1 c w
theorem W4_arr (c : Dev nD) (w : Fin cfg2.W) :
    W4 m ρ c (Proc.devRef .tc (Pipeline.arrRef spec2 w)) = (dat2 (V3 m ρ) c).arrAt w cfg2.N :=
  exitW_arr _ _ launch2 c w
theorem W6_arr (c : Dev nD) (w : Fin cfg3.W) :
    W6 m ρ c (Proc.devRef .tc (Pipeline.arrRef spec3 w)) = (dat3 (V5 m ρ) c).arrAt w cfg3.N :=
  exitW_arr _ _ launch3 c w
theorem W7_arr (c : Dev nD) (w : Fin cfg4.W) :
    W7 m ρ c (Proc.devRef .tc (Pipeline.arrRef spec4 w)) = (dat4 (V6 m ρ) c).arrAt w cfg4.N :=
  exitW_arr _ _ launch4 c w

theorem W1_keep (c : Dev nD) (b : Ref sig .tc) (hb : b ∉ hostOps0_W) :
    W1 m ρ c (Proc.devRef .tc b) = W0 m ρ c (Proc.devRef .tc b) :=
  StableHlo.after_of_writes_sub hostOps0 _ hostOps0_writes hb
theorem W2_keep (c : Dev nD) (b : Ref sig .tc) (hb : ∀ w, Pipeline.arrRef spec0 w = b → (cfg0.win w).isOut = false) :
    W2 m ρ c (Proc.devRef .tc b) = W1 m ρ c (Proc.devRef .tc b) :=
  exitW_keep _ _ launch0 (A_eq0 _) c b hb
theorem W3_keep (c : Dev nD) (b : Ref sig .tc) (hb : ∀ w, Pipeline.arrRef spec1 w = b → (cfg1.win w).isOut = false) :
    W3 m ρ c (Proc.devRef .tc b) = W2 m ρ c (Proc.devRef .tc b) :=
  exitW_keep _ _ launch1 (A_eq1 _) c b hb
theorem W4_keep (c : Dev nD) (b : Ref sig .tc) (hb : ∀ w, Pipeline.arrRef spec2 w = b → (cfg2.win w).isOut = false) :
    W4 m ρ c (Proc.devRef .tc b) = W3 m ρ c (Proc.devRef .tc b) :=
  exitW_keep _ _ launch2 (A_eq2 _) c b hb
theorem W5_keep (c : Dev nD) (b : Ref sig .tc) (hb : b ∉ hostOps3_W) :
    W5 m ρ c (Proc.devRef .tc b) = W4 m ρ c (Proc.devRef .tc b) :=
  StableHlo.after_of_writes_sub hostOps3 _ hostOps3_writes hb
theorem W6_keep (c : Dev nD) (b : Ref sig .tc) (hb : ∀ w, Pipeline.arrRef spec3 w = b → (cfg3.win w).isOut = false) :
    W6 m ρ c (Proc.devRef .tc b) = W5 m ρ c (Proc.devRef .tc b) :=
  exitW_keep _ _ launch3 (A_eq3 _) c b hb
theorem W7_keep (c : Dev nD) (b : Ref sig .tc) (hb : ∀ w, Pipeline.arrRef spec4 w = b → (cfg4.win w).isOut = false) :
    W7 m ρ c (Proc.devRef .tc b) = W6 m ρ c (Proc.devRef .tc b) :=
  exitW_keep _ _ launch4 (A_eq4 _) c b hb

/-- A buffer that no host stretch writes and that is no region's output array ends as launched. -/
theorem W7_launch (c : Dev nD) (b : Ref sig .tc) (h1 : b ∉ hostOps0_W) (h5 : b ∉ hostOps3_W)
    (k0 : ∀ w, Pipeline.arrRef spec0 w = b → (cfg0.win w).isOut = false) (k1 : ∀ w, Pipeline.arrRef spec1 w = b → (cfg1.win w).isOut = false)
    (k2 : ∀ w, Pipeline.arrRef spec2 w = b → (cfg2.win w).isOut = false) (k3 : ∀ w, Pipeline.arrRef spec3 w = b → (cfg3.win w).isOut = false)
    (k4 : ∀ w, Pipeline.arrRef spec4 w = b → (cfg4.win w).isOut = false) :
    W7 m ρ c (Proc.devRef .tc b) = m ((c : Thread nD τ).loc b) :=
  (W7_keep m ρ c b k4).trans <| (W6_keep m ρ c b k3).trans <| (W5_keep m ρ c b h5).trans <| (W4_keep m ρ c b k2).trans <|
    (W3_keep m ρ c b k1).trans <| (W2_keep m ρ c b k0).trans <| (W1_keep m ρ c b h1).trans rfl

end Cert.Kernel.Hand

end
-- ==== Proof.K.Reg0.lean ====
import proofs.«141970_g2173253451805_cont_8to1_1923_2_alg».proof.Proof.K.Reg0Defs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The body only reads its inputs, so what it finds in one is what it leaves there.
theorem before0 (c : Dev nD) (w : Fin cfg0.W) (hw : w.val < 2) (t d) : (dat0 V c).before w t d = (dat0 V c).after w t := by
  rcases w with ⟨_ | _ | n, _⟩ <;>
    first
    | exact absurd hw (Nat.not_lt.mpr (Nat.le_add_left _ _))
    | exact ((dat0 V c).before_in_eq_fetched _ rfl (fun _ => rfl) (fun _ _ _ => rfl) (fun _ => rfl) t d).trans rfl

theorem cover0_2 (p0 : Vec F S512x512 .f32) (y : S512x512.Idx) :
    ∃ pc ∈ ([⟨r0_2, p0⟩] : List (View.Piece (Elt F) S512x512 .f32)), y ∈ pc.1.set :=
  View.cover_of_tiled [⟨r0_2, p0⟩] S512x512.size (by rfl) y

-- The one store is of the whole product block, so the buffer reads the stored product; the factors are only read.
theorem body_obligation0 (c : Dev nD) : BodyObligation (dat0 (F := F) V c) (defs₀ (F := F)) Variants.none () Set.univ := fun t => by
  rw [bigSep_W0, bigSep_W0]
  simp (disch := decide) only [before0 V c]
  rw [after0_0, after0_1, after0_2]
  generalize iblk0 V c 0 t = x0, iblk0 V c 1 t = x1
  show _ ⊢ wp _ _ _ (bodyAt0 t) fun _ => iprop((dat0 V c).Φ t.castSucc ∗ (dat0 V c).owesAt () t.castSucc ∗ _)
  simp only [bodyAt0, cc0__k1_body_eq_skeleton]; unfold cc0__k1_body_skel
  conv_lhs => unfold owns
  iintro ⟨HΦ, Ho, ⟨%_, %f0, %hf0, H0⟩, ⟨%_, %f1, %hf1, H1⟩, ⟨%_, %f2, -, H2⟩⟩
  subst hf0 hf1
  sl_exec
  sl_step
  isplitl [HΦ]; · iexact HΦ
  isplitl [Ho]; · iexact Ho
  isplitl [H0]; · iapply owns_intro; iexact H0
  isplitl [H1]; · iapply owns_intro; iexact H1
  unfold owns
  iexists _; isplitr; swap; · iexact H2
  ipureintro; exact View.read_writes_eq_canon _ _ _ (cover0_2 _)

end Cert.Kernel.Hand

end
-- ==== Proof.K.Reg1.lean ====
import proofs.«141970_g2173253451805_cont_8to1_1923_2_alg».proof.Proof.K.Reg1Defs

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The body only reads its inputs, so what it finds in one is what it leaves there.
theorem before1 (c : Dev nD) (w : Fin cfg1.W) (hw : w.val < 3) (t d) : (dat1 V c).before w t d = (dat1 V c).after w t := by
  rcases w with ⟨_ | _ | _ | n, _⟩ <;>
    first
    | exact absurd hw (Nat.not_lt.mpr (Nat.le_add_left _ _))
    | exact ((dat1 V c).before_in_eq_fetched _ rfl (fun _ => rfl) (fun _ _ _ => rfl) (fun _ => rfl) t d).trans rfl

-- The one store is of the whole output block, so the buffer reads the stored payload; the inputs are only read.
theorem body_obligation1 (c : Dev nD) : BodyObligation (dat1 (F := F) V c) (defs₀ (F := F)) Variants.none () Set.univ := fun t => by
  rw [bigSep_W1, bigSep_W1]
  simp (disch := decide) only [before1 V c]
  rw [after1_0, after1_1, after1_2, after1_3]
  generalize iblk1 V c 0 t = x0, iblk1 V c 1 t = x1, iblk1 V c 2 t = x2
  show _ ⊢ wp _ _ _ (bodyAt1 t) fun _ => iprop((dat1 V c).Φ t.castSucc ∗ (dat1 V c).owesAt () t.castSucc ∗ _)
  simp only [bodyAt1, cc1__k2_body_eq_skeleton]; unfold cc1__k2_body_skel
  conv_lhs => unfold owns
  iintro ⟨HΦ, Ho, ⟨%_, %f0, %hf0, H0⟩, ⟨%_, %f1, %hf1, H1⟩, ⟨%_, %f2, %hf2, H2⟩, ⟨%_, %f3, -, H3⟩⟩
  subst hf0 hf1 hf2
  sl_exec
  sl_step
  isplitl [HΦ]; · iexact HΦ
  isplitl [Ho]; · iexact Ho
  isplitl [H0]; · iapply owns_intro; iexact H0
  isplitl [H1]; · iapply owns_intro; iexact H1
  isplitl [H2]; · iapply owns_intro; iexact H2
  unfold owns
  iexists _; isplitr; swap; · iexact H3
  ipureintro; exact View.read_writes_eq_canon _ _ _ (cover1_3 _)

end Cert.Kernel.Hand

end
-- ==== Proof.K.Reg2.lean ====
import proofs.«141970_g2173253451805_cont_8to1_1923_2_alg».proof.Proof.K.Reg2Defs
import Idealize.ShloMosaic.Lib.Pipeline.FrameBody
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The body only reads its inputs, so what it finds in one is what it leaves there.
theorem before2 (c : Dev nD) (w : Fin cfg2.W) (hw : w.val < 4) (t d) : (dat2 V c).before w t d = (dat2 V c).after w t := by
  rcases w with ⟨_ | _ | _ | _ | n, _⟩ <;>
    first
    | exact absurd hw (Nat.not_lt.mpr (Nat.le_add_left _ _))
    | exact ((dat2 V c).before_in_eq_fetched _ rfl (fun _ => rfl) (fun _ _ _ => rfl) (fun _ => rfl) t d).trans rfl

theorem cover2_4 (p : Vec F S512x256 .f32) (y : S512x256.Idx) :
    ∃ pc ∈ ([⟨r2_4, p⟩] : List (View.Piece (Elt F) S512x256 .f32)), y ∈ pc.1.set :=
  View.cover_of_tiled [⟨r2_4, p⟩] S512x256.size (by rfl) y

theorem cover2_5 (p : Vec F S512x512 .f32) (y : S512x512.Idx) :
    ∃ pc ∈ ([⟨r2_5, p⟩] : List (View.Piece (Elt F) S512x512 .f32)), y ∈ pc.1.set :=
  View.cover_of_tiled [⟨r2_5, p⟩] S512x512.size (by rfl) y

theorem cover2_6 (p : Vec F S8x512 .f32) (y : S8x512.Idx) :
    ∃ pc ∈ ([⟨r2_6, p⟩] : List (View.Piece (Elt F) S8x512 .f32)), y ∈ pc.1.set :=
  View.cover_of_tiled [⟨r2_6, p⟩] S8x512.size (by rfl) y

theorem statsAt2_first (c : Dev nD) (t : Fin cfg2.N) (h0 : t.val = 0) :
    statsAt2 V c t.val t.isLt = upd2 (iblk2 V c 0 t) (iblk2 V c 1 t) (iblk2 V c 2 t) (iblk2 V c 3 t) := by
  obtain ⟨_ | n, hn⟩ := t
  · rfl
  · exact absurd h0 (Nat.succ_ne_zero n)

-- After the first point the running sums start from what the point before left.
theorem later2 (c : Dev nD) (t : Fin cfg2.N) (h0 : t.val ≠ 0) :
    ∃ xo, (∀ d, (dat2 V c).before 6 t d = xo) ∧
      statsAt2 V c t.val t.isLt = acc2 (iblk2 V c 0 t) (iblk2 V c 1 t) (iblk2 V c 2 t) (iblk2 V c 3 t) xo := by
  refine ⟨statsAt2 V c (t.val - 1) (Nat.lt_of_le_of_lt (Nat.sub_le _ _) t.isLt), fun d => ?_, ?_⟩
  · have hN : t.val < 8 := lt_of_lt_of_eq t.isLt (show cfg2.N = 8 from N_2)
    rw [Dat.before_out_kept _ 6 rfl t h0 (Bool.eq_false_iff.mpr fun h => by have := (flush2_6 _).mp h; dsimp only at this; omega)
      live2_6 (fun _ _ => rfl)]
    dsimp only [dat2]
  · obtain ⟨_ | n, hn⟩ := t
    · exact absurd rfl h0
    · rfl

-- At the first point the sums are stored, at a later one added to what the buffer holds; the other outputs are stored whole.
theorem body_obligation2 (c : Dev nD) : BodyObligation (dat2 (F := F) V c) (defs₀ (F := F)) Variants.none () Set.univ := fun t => by
  rw [bigSep_W2, bigSep_W2]
  have h6 : idle2 6 (grid2.coords t) = false := live2_6 _
  simp (disch := decide) only [before2 V c, h6]
  rw [after2_0, after2_1, after2_2, after2_3, after2_4, after2_5, after2_6]
  by_cases h0 : t.val = 0
  case' pos =>
    rw [statsAt2_first V c t h0]
    have hc1 := (hcond2_0 t).mpr h0
    have hc2 : ¬k2_cond2 (grid2.coords t) = 1#1 := fun h => (hcond2_1 t).mp h h0
  case' neg =>
    obtain ⟨xo, hb, hs⟩ := later2 V c t h0
    rw [hs]; simp only [hb]
    have hc1 : ¬k2_cond1 (grid2.coords t) = 1#1 := fun h => h0 ((hcond2_0 t).mp h)
    have hc2 := (hcond2_1 t).mpr h0
  all_goals
    generalize iblk2 V c 0 t = x0, iblk2 V c 1 t = x1, iblk2 V c 2 t = x2, iblk2 V c 3 t = x3
    show _ ⊢ wp _ _ _ (bodyAt2 t) fun _ => iprop((dat2 V c).Φ t.castSucc ∗ (dat2 V c).owesAt () t.castSucc ∗ _)
    simp only [bodyAt2, cc2__k3_body_eq_skeleton]; unfold cc2__k3_body_skel
    conv_lhs => unfold owns
    iintro ⟨HΦ, Ho, ⟨%_, %f0, %hf0, H0⟩, ⟨%_, %f1, %hf1, H1⟩, ⟨%_, %f2, %hf2, H2⟩, ⟨%_, %f3, %hf3, H3⟩, ⟨%_, %f4, -, H4⟩, ⟨%_, %f5, -, H5⟩, ⟨%_, %f6, %hf6, H6⟩⟩
    subst hf0 hf1 hf2 hf3
    try subst hf6
    sl_exec (disch := first | exact hc1 | exact hc2)
    sl_step
    isplitl [HΦ]; · iexact HΦ
    isplitl [Ho]; · iexact Ho
    isplitl [H0]; · iapply owns_intro; iexact H0
    isplitl [H1]; · iapply owns_intro; iexact H1
    isplitl [H2]; · iapply owns_intro; iexact H2
    isplitl [H3]; · iapply owns_intro; iexact H3
    unfold owns
    isplitl [H4]
    · iexists _; isplitr; swap; · iexact H4
      ipureintro; exact View.read_writes_eq_canon _ _ _ (cover2_4 _)
    isplitl [H5]
    · iexists _; isplitr; swap; · iexact H5
      ipureintro; exact View.read_writes_eq_canon _ _ _ (cover2_5 _)
    iexists _; isplitr; swap; · iexact H6
    ipureintro; exact View.read_writes_eq_canon _ _ _ (cover2_6 _)

end Cert.Kernel.Hand

end
-- ==== Proof.K.Reg3.lean ====
import proofs.«141970_g2173253451805_cont_8to1_1923_2_alg».proof.Proof.Gen.Kernel.Launch
import proofs.«141970_g2173253451805_cont_8to1_1923_2_alg».proof.Proof.Gen.Kernel.Skeleton
import proofs.«141970_g2173253451805_cont_8to1_1923_2_alg».proof.Proof.Gen.Kernel.Points
import proofs.«141970_g2173253451805_cont_8to1_1923_2_alg».proof.Proof.K.Reg3Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The body only reads its inputs, so what it finds in one is what it leaves there.
theorem before3 (c : Dev nD) (w : Fin cfg3.W) (hw : w.val < 2) (t d) : (dat3 V c).before w t d = (dat3 V c).after w t := by
  rcases w with ⟨_ | _ | n, _⟩ <;>
    first
    | exact absurd hw (Nat.not_lt.mpr (Nat.le_add_left _ _))
    | exact ((dat3 V c).before_in_eq_fetched _ rfl (fun _ => rfl) (fun _ _ _ => rfl) (fun _ => rfl) t d).trans rfl

-- The one store is of the whole product block, so the buffer reads the stored product; the factors are only read.
theorem body_obligation3 (c : Dev nD) : BodyObligation (dat3 (F := F) V c) (defs₀ (F := F)) Variants.none () Set.univ := fun t => by
  rw [bigSep_W3, bigSep_W3]
  simp (disch := decide) only [before3 V c]
  rw [after3_0, after3_1, after3_2]
  generalize iblk3 V c 0 t = x0, iblk3 V c 1 t = x1
  show _ ⊢ wp _ _ _ (bodyAt3 t) fun _ => iprop((dat3 V c).Φ t.castSucc ∗ (dat3 V c).owesAt () t.castSucc ∗ _)
  simp only [bodyAt3, cc3__k4_body_eq_skeleton]; unfold cc3__k4_body_skel
  conv_lhs => unfold owns
  iintro ⟨HΦ, Ho, ⟨%_, %f0, %hf0, H0⟩, ⟨%_, %f1, %hf1, H1⟩, ⟨%_, %f2, -, H2⟩⟩
  subst hf0 hf1
  sl_exec
  sl_step
  isplitl [HΦ]; · iexact HΦ
  isplitl [Ho]; · iexact Ho
  isplitl [H0]; · iapply owns_intro; iexact H0
  isplitl [H1]; · iapply owns_intro; iexact H1
  unfold owns
  iexists _; isplitr; swap; · iexact H2
  ipureintro; exact View.read_writes_eq_canon _ _ _ (cover3_2 _)

end Cert.Kernel.Hand

end
-- ==== Proof.K.Reg4.lean ====
import proofs.«141970_g2173253451805_cont_8to1_1923_2_alg».proof.Proof.Gen.Kernel.Launch
import proofs.«141970_g2173253451805_cont_8to1_1923_2_alg».proof.Proof.Gen.Kernel.Skeleton
import proofs.«141970_g2173253451805_cont_8to1_1923_2_alg».proof.Proof.Gen.Kernel.Points
import proofs.«141970_g2173253451805_cont_8to1_1923_2_alg».proof.Proof.K.Reg4Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The body only reads its inputs, so what it finds in one is what it leaves there.
theorem before4 (c : Dev nD) (w : Fin cfg4.W) (hw : w.val < 10) (t d) : (dat4 V c).before w t d = (dat4 V c).after w t := by
  rcases w with ⟨_ | _ | _ | _ | _ | _ | _ | _ | _ | _ | n, _⟩ <;>
    first
    | exact absurd hw (Nat.not_lt.mpr (Nat.le_add_left _ _))
    | exact ((dat4 V c).before_in_eq_fetched _ rfl (fun _ => rfl) (fun _ _ _ => rfl) (fun _ => rfl) t d).trans rfl

theorem cover4_10 (p0 : Vec F S256x512 .f32) (y : S256x512.Idx) :
    ∃ pc ∈ ([⟨r4_2, p0⟩] : List (View.Piece (Elt F) S256x512 .f32)), y ∈ pc.1.set :=
  View.cover_of_tiled [⟨r4_2, p0⟩] S256x512.size (by rfl) y

theorem cover4_11 (p0 : Vec F S256x2000 .f32) (y : S256x2000.Idx) :
    ∃ pc ∈ ([⟨r4_6, p0⟩] : List (View.Piece (Elt F) S256x2000 .f32)), y ∈ pc.1.set :=
  View.cover_of_tiled [⟨r4_6, p0⟩] S256x2000.size (by rfl) y

theorem cover4_12 (p0 : Vec F S256x2000 .f32) (y : S256x2000.Idx) :
    ∃ pc ∈ ([⟨r4_6, p0⟩] : List (View.Piece (Elt F) S256x2000 .f32)), y ∈ pc.1.set :=
  cover4_11 p0 y

theorem cover4_13 (p0 : Vec F S256x2000 .f32) (y : S256x2000.Idx) :
    ∃ pc ∈ ([⟨r4_6, p0⟩] : List (View.Piece (Elt F) S256x2000 .f32)), y ∈ pc.1.set :=
  cover4_11 p0 y

theorem body_obligation4 (c : Dev nD) : BodyObligation (dat4 (F := F) V c) (defs₀ (F := F)) Variants.none () Set.univ := fun t => by
  rw [bigSep_W4, bigSep_W4]
  simp (disch := decide) only [before4 V c]
  rw [after4_0, after4_1, after4_2, after4_3, after4_4, after4_5, after4_6, after4_7, after4_8, after4_9, after4_10, after4_11, after4_12, after4_13]
  generalize iblk4 V c 0 t = x0, iblk4 V c 1 t = x1, iblk4 V c 2 t = x2, iblk4 V c 3 t = x3, iblk4 V c 4 t = x4,
    iblk4 V c 5 t = x5, iblk4 V c 6 t = x6, iblk4 V c 7 t = x7, iblk4 V c 8 t = x8, iblk4 V c 9 t = x9
  show _ ⊢ wp _ _ _ (bodyAt4 t) fun _ => iprop((dat4 V c).Φ t.castSucc ∗ (dat4 V c).owesAt () t.castSucc ∗ _)
  simp only [bodyAt4, cc4__k5_body_eq_skeleton]; unfold cc4__k5_body_skel
  simp only [k4_part1_eq_skeleton]; unfold k4_part1_skel
  simp only [k4_part2_eq_skeleton]; unfold k4_part2_skel
  conv_lhs => unfold owns
  iintro ⟨HΦ, Ho, ⟨%_, %f0, %hf0, H0⟩, ⟨%_, %f1, %hf1, H1⟩, ⟨%_, %f2, %hf2, H2⟩, ⟨%_, %f3, %hf3, H3⟩, ⟨%_, %f4, %hf4, H4⟩, ⟨%_, %f5, %hf5, H5⟩, ⟨%_, %f6, %hf6, H6⟩, ⟨%_, %f7, %hf7, H7⟩, ⟨%_, %f8, %hf8, H8⟩, ⟨%_, %f9, %hf9, H9⟩, ⟨%_, %f10, -, H10⟩, ⟨%_, %f11, -, H11⟩, ⟨%_, %f12, -, H12⟩, ⟨%_, %f13, -, H13⟩⟩
  subst hf0 hf1 hf2 hf3 hf4 hf5 hf6 hf7 hf8 hf9
  sl_exec
  sl_step
  isplitl [HΦ]; · iexact HΦ
  isplitl [Ho]; · iexact Ho
  isplitl [H0]; · iapply owns_intro; iexact H0
  isplitl [H1]; · iapply owns_intro; iexact H1
  isplitl [H2]; · iapply owns_intro; iexact H2
  isplitl [H3]; · iapply owns_intro; iexact H3
  isplitl [H4]; · iapply owns_intro; iexact H4
  isplitl [H5]; · iapply owns_intro; iexact H5
  isplitl [H6]; · iapply owns_intro; iexact H6
  isplitl [H7]; · iapply owns_intro; iexact H7
  isplitl [H8]; · iapply owns_intro; iexact H8
  isplitl [H9]; · iapply owns_intro; iexact H9
  unfold owns
  isplitl [H10]
  · iexists _; isplitr; swap; · iexact H10
    ipureintro; exact View.read_writes_eq_canon _ _ _ (cover4_10 _)
  isplitl [H11]
  · iexists _; isplitr; swap; · iexact H11
    ipureintro; exact View.read_writes_eq_canon _ _ _ (cover4_11 _)
  isplitl [H12]
  · iexists _; isplitr; swap; · iexact H12
    ipureintro; exact View.read_writes_eq_canon _ _ _ (cover4_12 _)
  iexists _; isplitr; swap; · iexact H13
  ipureintro; exact View.read_writes_eq_canon _ _ _ (cover4_13 _)

end Cert.Kernel.Hand

end
-- ==== Proof.K.Run.lean ====
import proofs.«141970_g2173253451805_cont_8to1_1923_2_alg».proof.Proof.K.Fold
import proofs.«141970_g2173253451805_cont_8to1_1923_2_alg».proof.Proof.K.Reg0
import proofs.«141970_g2173253451805_cont_8to1_1923_2_alg».proof.Proof.K.Reg1
import proofs.«141970_g2173253451805_cont_8to1_1923_2_alg».proof.Proof.K.Reg2
import proofs.«141970_g2173253451805_cont_8to1_1923_2_alg».proof.Proof.K.Reg3
import proofs.«141970_g2173253451805_cont_8to1_1923_2_alg».proof.Proof.K.Reg4

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each region's proof data, at the contents the region is entered with. -/
def pdats : (p : Fin 5) → (c : Dev nD) → Dat τ (Elt F) Unit ℕ (UR sig nD τ) ℕ (Pipeline.pin (pcfgs (F := F)) adm p) c
  | ⟨0, _⟩ => dat0 (V1 m ρ)
  | ⟨1, _⟩ => dat1 (V2 m ρ)
  | ⟨2, _⟩ => dat2 (V3 m ρ)
  | ⟨3, _⟩ => dat3 (V5 m ρ)
  | ⟨4, _⟩ => dat4 (V6 m ρ)
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
/-- Between two items of @main every buffer holds `W`. -/
abbrev T (W : Dev nD → Valuation τ sig (Elt F)) (c : Dev nD) : sProp 𝕄 :=
  iprop(StableHlo.held (c : Thread nD τ) (Pipeline.ucRefs τ sig) (W c) ∗ R c)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- A kernel region as one item of @main: entered with the buffers at `W`, it leaves them at `exitW`. -/
def reg (p : Fin 5) (lf : Pipeline.LaunchFacts (nD := nD) (τ := τ) cfgs p) (W : Dev nD → Valuation τ sig (Elt F))
    (hbody : ∀ c, BodyObligation (pdats m ρ p c) (defs₀ (F := F)) Variants.none () Set.univ)
    (hA : ∀ c w, (pdats m ρ p c).A w = W c (Proc.devRef .tc (Pipeline.arrRef (cfgs p).spec w)))
    (hΦ : ∀ c t, (pdats m ρ p c).Φ t = Pipeline.ΦA (cfgs p).spec c)
    (hq : ∀ c w, (pdats m ρ p c).q w = fullShare) (howed : ∀ c t, (pdats m ρ p c).owed t = 0)
    (hrec : ∀ c t, (pdats m ρ p c).recorded t = Set.univ) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre := T W
  post := T (exitW (pdats m ρ p) W)
  X c := iprop(∃ r, prngReg c r)
  Y c := iprop(∃ r, prngReg c r)
  Z c := Pipeline.unscopedRest (Ix := Unit) (Name := ℕ) (U := UR sig nD τ) (Lvl := ℕ) (cfgs p).spec c (rd W c)
  hentry c := by
    rw [Pipeline.ownSems0_none]
    have hsplit := Pipeline.arrays_of_unscopedBufs (p := p) (pcfgs (F := F)) adm (pdats m ρ) lf.win lf.arr_whole c
      ((pdats m ρ p c).share_full (hq c)) (rd W c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun _ _ => Or.inl (hrec c 0 ▸ trivial)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (rd W c) (rd (exitW (pdats m ρ p) W) c) ((pdats m ρ p c).arrAt · (cfgs p).N)
      (fun w => (exitW_arr (pdats m ρ p) W lf c w).symm)
      (fun b hb => exitW_of_ne (pdats m ρ p) W c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

/-- @main's seven items in order: a host stretch, three regions, a host stretch, two regions. -/
abbrev items : List (Pipeline.Seg (pcfgs (F := F)) adm (pdats m ρ) () defs₀ 𝒱₀ L lv) :=
  [ .host (hseg hostOps0 hostOps0_sub hostOps0_fresh (W0 m ρ)),
    .region (reg m ρ 0 launch0 (W1 m ρ) (body_obligation0 _) (A_eq0 _) (fun _ _ => rfl) (fun _ _ => rfl) (fun _ _ => rfl) fun _ _ => rfl),
    .region (reg m ρ 1 launch1 (W2 m ρ) (body_obligation1 _) (A_eq1 _) (fun _ _ => rfl) (fun _ _ => rfl) (fun _ _ => rfl) fun _ _ => rfl),
    .region (reg m ρ 2 launch2 (W3 m ρ) (body_obligation2 _) (A_eq2 _) (fun _ _ => rfl) (fun _ _ => rfl) (fun _ _ => rfl) fun _ _ => rfl),
    .host (hseg hostOps3 hostOps3_sub hostOps3_fresh (W4 m ρ)),
    .region (reg m ρ 3 launch3 (W5 m ρ) (body_obligation3 _) (A_eq3 _) (fun _ _ => rfl) (fun _ _ => rfl) (fun _ _ => rfl) fun _ _ => rfl),
    .region (reg m ρ 4 launch4 (W6 m ρ) (body_obligation4 _) (A_eq4 _) (fun _ _ => rfl) (fun _ _ => rfl) (fun _ _ => rfl) fun _ _ => rfl) ]
theorem main_run (c : Dev nD) : main (F := F) c = Pipeline.Seg.run (items m ρ) := (main_chain c).trans (by chain_rfl)

set_option backward.isDefEq.respectTransparency.types false in
/-- The launch: the seven items chained, from the launch contents to `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := T (W0 m ρ))
    (Tₙ := fun c => iprop(StableHlo.held (c : Thread nD τ) (Pipeline.ucRefs τ sig) (W7 m ρ c) ∗ ∃ r, prngReg c r))
    (hch := ⟨fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- The fifteen argument arrays: no host stretch writes them and no region has one as an output window's array. -/
abbrev args : List (Ref sig .tc) := [main_arg0, main_arg1, main_arg2, main_arg3, main_arg4, main_arg5, main_arg6, main_arg7,
  main_arg8, main_arg9, main_arg10, main_arg11, main_arg12, main_arg13, main_arg14]

/-- After a run that ends at the last boundary's contents, an argument array is as launched. -/
theorem arg_kept {s : MemSt nD τ sig (Elt F)} (h : ∀ c : Dev nD, ∀ b ∈ Pipeline.ucRefs τ sig, s.mem (((c : Thread nD τ)).1, b) = W7 m ρ c b)
    (c : Dev nD) (b : Ref sig .tc) (hb : b ∈ args) : s.mem ((c.tc : Thread nD τ).loc b) = m ((c.tc : Thread nD τ).loc b) := by
  simp only [args, List.mem_cons, List.not_mem_nil, or_false] at hb
  rcases hb with rfl | rfl | rfl | rfl | rfl | rfl | rfl | rfl | rfl | rfl | rfl | rfl | rfl | rfl | rfl <;>
    exact (h c _ (mem_uc _ (by decide))).trans
      (W7_launch m ρ c _ (by decide) (by decide) (by decide) (by decide) (by decide) (by decide) (by decide))

/-- The frame claim at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => by
    have k := arg_kept m ρ h c
    exact ⟨k _ (by decide), k _ (by decide), k _ (by decide), k _ (by decide), k _ (by decide), k _ (by decide), k _ (by decide),
      k _ (by decide), k _ (by decide), k _ (by decide), k _ (by decide), k _ (by decide), k _ (by decide), k _ (by decide), k _ (by decide)⟩)
    (run_all m ρ)

end Cert.Kernel.Hand

end
-- ==== Proof.KI.Reg0Defs.lean ====
import proofs.«141970_g2173253451805_cont_8to1_1923_2_alg».proof.Proof.Gen.KernelIdeal.Launch
import proofs.«141970_g2173253451805_cont_8to1_1923_2_alg».proof.Proof.Gen.KernelIdeal.Skeleton
import proofs.«141970_g2173253451805_cont_8to1_1923_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S512x2000 := Rect.unit (s := S512x2000) ![0, 0] S512x2000.size inb_S512x2000_S512x2000_0_0
abbrev r0_1 : Rect S2000x512 := Rect.unit (s := S2000x512) ![0, 0] S2000x512.size inb_S2000x512_S2000x512_0_0
abbrev r0_2 : Rect S512x512 := Rect.unit (s := S512x512) ![0, 0] S512x512.size inb_S512x512_S512x512_0_0

noncomputable def out0_2 (x0 : Vec F S512x2000 .f32) (x1 : Vec F S2000x512 .f32) : Vec F S512x512 .f32 :=
  View.canon [⟨r0_2, k0_pay1 (View.ld x0 r0_0) (View.ld x1 r0_1)⟩]

noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

end Cert.KernelIdeal.Hand

end
-- ==== Proof.KI.Reg1Defs.lean ====
import proofs.«141970_g2173253451805_cont_8to1_1923_2_alg».proof.Proof.Gen.KernelIdeal.Launch
import proofs.«141970_g2173253451805_cont_8to1_1923_2_alg».proof.Proof.Gen.KernelIdeal.Skeleton
import proofs.«141970_g2173253451805_cont_8to1_1923_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S512x256 := Rect.unit (s := S512x256) ![0, 0] S512x256.size inb_S512x256_S512x256_0_0

noncomputable def out1_3 (x0 : Vec F S512x4096 .f32) (x1 : Vec F S4096x512 .f32) (x2 : Vec F S512x256 .f32) : Vec F S512x256 .f32 :=
  View.canon [⟨r1_0, k1_pay1 (View.ld x0 (Rect.unit (s := S512x4096) ![0, 0] S512x4096.size inb_S512x4096_S512x4096_0_0))
    (View.ld x1 (Rect.unit (s := S4096x512) ![0, 0] S4096x512.size inb_S4096x512_S4096x512_0_0))
    (View.ld x2 (Rect.unit (s := S512x256) ![0, 0] S512x256.size inb_S512x256_S512x256_0_0))⟩]

theorem cover1_3 (p0 : Vec F S512x256 .f32) (y : S512x256.Idx) :
    ∃ pc ∈ ([⟨r1_0, p0⟩] : List (View.Piece (Elt F) S512x256 .f32)), y ∈ pc.1.set :=
  View.cover_of_tiled [⟨r1_0, p0⟩] S512x256.size (by rfl) y

noncomputable def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

end Cert.KernelIdeal.Hand

end
-- ==== Proof.KI.Reg2Defs.lean ====
import proofs.«141970_g2173253451805_cont_8to1_1923_2_alg».proof.Proof.Gen.KernelIdeal.Launch
import proofs.«141970_g2173253451805_cont_8to1_1923_2_alg».proof.Proof.Gen.KernelIdeal.Skeleton
import proofs.«141970_g2173253451805_cont_8to1_1923_2_alg».proof.Proof.Gen.KernelIdeal.Points
import Idealize.ShloMosaic.Lib.Pipeline.FrameBody
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S512x4096 := Rect.unit (s := S512x4096) ![0, 0] S512x4096.size inb_S512x4096_S512x4096_0_0
abbrev r2_1 : Rect S4096x256 := Rect.unit (s := S4096x256) ![0, 0] S4096x256.size inb_S4096x256_S4096x256_0_0
abbrev r2_2 : Rect S128x512 := Rect.unit (s := S128x512) ![0, 0] S128x512.size inb_S128x512_S128x512_0_0
abbrev r2_3 : Rect S1x512 := Rect.unit (s := S1x512) ![0, 0] S1x512.size inb_S1x512_S1x512_0_0
abbrev r2_4 : Rect S512x256 := Rect.unit (s := S512x256) ![0, 0] S512x256.size inb_S512x256_S512x256_0_0
abbrev r2_5 : Rect S512x512 := Rect.unit (s := S512x512) ![0, 0] S512x512.size inb_S512x512_S512x512_0_0
abbrev r2_6 : Rect S8x512 := Rect.unit (s := S8x512) ![0, 0] S8x512.size inb_S8x512_S8x512_0_0

noncomputable def out2_4 (x0 : Vec F S512x4096 .f32) (x1 : Vec F S4096x256 .f32) : Vec F S512x256 .f32 :=
  View.canon [⟨r2_4, k2_pay1 (View.ld x0 r2_0) (View.ld x1 r2_1)⟩]

noncomputable def out2_5 (x0 : Vec F S512x4096 .f32) (x1 : Vec F S4096x256 .f32) (x2 : Vec F S128x512 .f32) (x3 : Vec F S1x512 .f32) :
    Vec F S512x512 .f32 :=
  View.canon [⟨r2_5, k2_pay2 (View.ld x0 r2_0) (View.ld x1 r2_1) (View.ld x2 r2_2) (View.ld x3 r2_3)⟩]

noncomputable def upd2 (x0 : Vec F S512x4096 .f32) (x1 : Vec F S4096x256 .f32) (x2 : Vec F S128x512 .f32) (x3 : Vec F S1x512 .f32) :
    Vec F S8x512 .f32 :=
  View.canon [⟨r2_6, k2_pay3 (View.ld x0 r2_0) (View.ld x1 r2_1) (View.ld x2 r2_2) (View.ld x3 r2_3)⟩]

noncomputable def acc2 (x0 : Vec F S512x4096 .f32) (x1 : Vec F S4096x256 .f32) (x2 : Vec F S128x512 .f32) (x3 : Vec F S1x512 .f32)
    (xo : Vec F S8x512 .f32) : Vec F S8x512 .f32 :=
  View.canon [⟨r2_6, k2_pay4 (View.ld x0 r2_0) (View.ld x1 r2_1) (View.ld x2 r2_2) (View.ld x3 r2_3) (View.ld xo r2_6)⟩]

noncomputable def statsAt2 (c : Dev nD) : (n : ℕ) → n < cfg2.N → Vec F S8x512 .f32
  | 0, hn => upd2 (iblk2 V c 0 ⟨0, hn⟩) (iblk2 V c 1 ⟨0, hn⟩) (iblk2 V c 2 ⟨0, hn⟩) (iblk2 V c 3 ⟨0, hn⟩)
  | n + 1, hn => acc2 (iblk2 V c 0 ⟨n + 1, hn⟩) (iblk2 V c 1 ⟨n + 1, hn⟩) (iblk2 V c 2 ⟨n + 1, hn⟩) (iblk2 V c 3 ⟨n + 1, hn⟩)
      (statsAt2 c n (Nat.lt_of_succ_lt hn))

theorem statsAt2_zero (c : Dev nD) (hn : 0 < cfg2.N) :
    statsAt2 V c 0 hn = upd2 (iblk2 V c 0 ⟨0, hn⟩) (iblk2 V c 1 ⟨0, hn⟩) (iblk2 V c 2 ⟨0, hn⟩) (iblk2 V c 3 ⟨0, hn⟩) := rfl

theorem statsAt2_succ (c : Dev nD) (n : ℕ) (hn : n + 1 < cfg2.N) :
    statsAt2 V c (n + 1) hn = acc2 (iblk2 V c 0 ⟨n + 1, hn⟩) (iblk2 V c 1 ⟨n + 1, hn⟩) (iblk2 V c 2 ⟨n + 1, hn⟩) (iblk2 V c 3 ⟨n + 1, hn⟩)
      (statsAt2 V c n (Nat.lt_of_succ_lt hn)) := rfl

theorem hcond2_0 : ∀ t : Fin cfg2.N, k2_cond1 (grid2.coords t) = 1#1 ↔ t.val = 0 :=
  (by decide +kernel : ∀ t : Fin grid2.N, k2_cond1 (grid2.coords t) = 1#1 ↔ t.val = 0)

theorem hcond2_1 : ∀ t : Fin cfg2.N, k2_cond2 (grid2.coords t) = 1#1 ↔ t.val ≠ 0 :=
  (by decide +kernel : ∀ t : Fin grid2.N, k2_cond2 (grid2.coords t) = 1#1 ↔ t.val ≠ 0)

theorem live2_6 : ∀ i : grid2.Coords, cfg2.idle 6 i = false := by
  decide +kernel

noncomputable def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t)
    | ⟨5, _⟩ => out2_5 (iblk2 V c 0 t) (iblk2 V c 1 t) (iblk2 V c 2 t) (iblk2 V c 3 t)
    | ⟨6, _⟩ => statsAt2 V c t.val t.isLt
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) := by dsimp only [dat2]
theorem after2_5 (c : Dev nD) (t : Fin cfg2.N) :
    (dat2 V c).after 5 t = out2_5 (iblk2 V c 0 t) (iblk2 V c 1 t) (iblk2 V c 2 t) (iblk2 V c 3 t) := by dsimp only [dat2]
theorem after2_6 (c : Dev nD) (t : Fin cfg2.N) : (dat2 V c).after 6 t = statsAt2 V c t.val t.isLt := by dsimp only [dat2]

end Cert.KernelIdeal.Hand

end
-- ==== Proof.KI.Reg3Defs.lean ====
import proofs.«141970_g2173253451805_cont_8to1_1923_2_alg».proof.Proof.Gen.KernelIdeal.Launch
import proofs.«141970_g2173253451805_cont_8to1_1923_2_alg».proof.Proof.Gen.KernelIdeal.Skeleton
import proofs.«141970_g2173253451805_cont_8to1_1923_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S1024x128 := Rect.unit (s := S1024x128) ![0, 0] S1024x128.size inb_S1024x128_S1024x128_0_0

abbrev r3_1 : Rect S128x2048 := Rect.unit (s := S128x2048) ![0, 0] S128x2048.size inb_S128x2048_S128x2048_0_0

abbrev r3_2 : Rect S1024x2048 := Rect.unit (s := S1024x2048) ![0, 0] S1024x2048.size inb_S1024x2048_S1024x2048_0_0

noncomputable def out3_2 (x0 : Vec F S1024x128 .f32) (x1 : Vec F S128x2048 .f32) : Vec F S1024x2048 .f32 :=
  View.canon [⟨r3_2, k3_pay1 (View.ld x0 r3_0) (View.ld x1 r3_1)⟩]

theorem cover3_2 (p0 : Vec F S1024x2048 .f32) (y : S1024x2048.Idx) :
    ∃ pc ∈ ([⟨r3_2, p0⟩] : List (View.Piece (Elt F) S1024x2048 .f32)), y ∈ pc.1.set :=
  View.cover_of_tiled [⟨r3_2, p0⟩] S1024x2048.size (by rfl) y

noncomputable def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

end Cert.KernelIdeal.Hand

end
-- ==== Proof.KI.Reg4Defs.lean ====
import proofs.«141970_g2173253451805_cont_8to1_1923_2_alg».proof.Proof.Gen.KernelIdeal.Launch
import proofs.«141970_g2173253451805_cont_8to1_1923_2_alg».proof.Proof.Gen.KernelIdeal.Skeleton
import proofs.«141970_g2173253451805_cont_8to1_1923_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S8x512 := Rect.unit (s := S8x512) ![0, 0] S1x512.size inb_S8x512_S1x512_0_0

abbrev r4_1 : Rect S8x512 := Rect.unit (s := S8x512) ![1, 0] S1x512.size inb_S8x512_S1x512_1_0

abbrev r4_2 : Rect S256x512 := Rect.unit (s := S256x512) ![0, 0] S256x512.size inb_S256x512_S256x512_0_0

abbrev r4_3 : Rect S1x512 := Rect.unit (s := S1x512) ![0, 0] S1x512.size inb_S1x512_S1x512_0_0

abbrev r4_4 : Rect S512x2000 := Rect.unit (s := S512x2000) ![0, 0] S512x2000.size inb_S512x2000_S512x2000_0_0

abbrev r4_5 : Rect S1x2000 := Rect.unit (s := S1x2000) ![0, 0] S1x2000.size inb_S1x2000_S1x2000_0_0

abbrev r4_6 : Rect S256x2000 := Rect.unit (s := S256x2000) ![0, 0] S256x2000.size inb_S256x2000_S256x2000_0_0

noncomputable def out4_10 (x0 : Vec F S256x512 .f32) (x1 : Vec F S8x512 .f32) (x2 x3 : Vec F S1x512 .f32) : Vec F S256x512 .f32 :=
  View.canon [⟨r4_2, k4_pay2 (View.ld x1 r4_0) (View.ld x1 r4_1) (View.ld x0 r4_2) (View.ld x2 r4_3) (View.ld x3 r4_3)⟩]

noncomputable def out4_11 (x0 : Vec F S256x512 .f32) (x1 : Vec F S8x512 .f32) (x2 x3 : Vec F S1x512 .f32)
    (x4 : Vec F S512x2000 .f32) (x5 : Vec F S1x2000 .f32) : Vec F S256x2000 .f32 :=
  View.canon [⟨r4_6, k4_pay4 (k4_pay3 (View.ld x1 r4_0) (View.ld x1 r4_1) (View.ld x0 r4_2) (View.ld x2 r4_3) (View.ld x3 r4_3) (View.ld x4 r4_4)) (View.ld x5 r4_5)⟩]

noncomputable def out4_12 (x0 : Vec F S256x512 .f32) (x1 : Vec F S8x512 .f32) (x2 x3 : Vec F S1x512 .f32)
    (x6 : Vec F S512x2000 .f32) (x7 : Vec F S1x2000 .f32) : Vec F S256x2000 .f32 :=
  View.canon [⟨r4_6, k4_pay6 (k4_pay2 (View.ld x1 r4_0) (View.ld x1 r4_1) (View.ld x0 r4_2) (View.ld x2 r4_3) (View.ld x3 r4_3)) (View.ld x6 r4_4) (View.ld x7 r4_5)⟩]

noncomputable def out4_13 (x0 : Vec F S256x512 .f32) (x1 : Vec F S8x512 .f32) (x2 x3 : Vec F S1x512 .f32)
    (x6 : Vec F S512x2000 .f32) (x7 x8 x9 : Vec F S1x2000 .f32) : Vec F S256x2000 .f32 :=
  View.canon [⟨r4_6, k4_pay1 (k4_pay7 (k4_pay2 (View.ld x1 r4_0) (View.ld x1 r4_1) (View.ld x0 r4_2) (View.ld x2 r4_3) (View.ld x3 r4_3)) (View.ld x6 r4_4) (View.ld x7 r4_5) (View.ld x8 r4_5)) (View.ld x9 r4_5)⟩]

noncomputable def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => iblk4 V c 9 t
    | ⟨10, _⟩ => out4_10 (iblk4 V c 0 t) (iblk4 V c 1 t) (iblk4 V c 2 t) (iblk4 V c 3 t)
    | ⟨11, _⟩ => out4_11 (iblk4 V c 0 t) (iblk4 V c 1 t) (iblk4 V c 2 t) (iblk4 V c 3 t) (iblk4 V c 4 t) (iblk4 V c 5 t)
    | ⟨12, _⟩ => out4_12 (iblk4 V c 0 t) (iblk4 V c 1 t) (iblk4 V c 2 t) (iblk4 V c 3 t) (iblk4 V c 6 t) (iblk4 V c 7 t)
    | ⟨13, _⟩ => out4_13 (iblk4 V c 0 t) (iblk4 V c 1 t) (iblk4 V c 2 t) (iblk4 V c 3 t) (iblk4 V c 6 t) (iblk4 V c 7 t) (iblk4 V c 8 t) (iblk4 V c 9 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = iblk4 V c 9 t := by dsimp only [dat4]
theorem after4_10 (c : Dev nD) (t : Fin cfg4.N) : (dat4 V c).after 10 t = out4_10 (iblk4 V c 0 t) (iblk4 V c 1 t) (iblk4 V c 2 t) (iblk4 V c 3 t) := by dsimp only [dat4]
theorem after4_11 (c : Dev nD) (t : Fin cfg4.N) : (dat4 V c).after 11 t = out4_11 (iblk4 V c 0 t) (iblk4 V c 1 t) (iblk4 V c 2 t) (iblk4 V c 3 t) (iblk4 V c 4 t) (iblk4 V c 5 t) := by dsimp only [dat4]
theorem after4_12 (c : Dev nD) (t : Fin cfg4.N) : (dat4 V c).after 12 t = out4_12 (iblk4 V c 0 t) (iblk4 V c 1 t) (iblk4 V c 2 t) (iblk4 V c 3 t) (iblk4 V c 6 t) (iblk4 V c 7 t) := by dsimp only [dat4]
theorem after4_13 (c : Dev nD) (t : Fin cfg4.N) : (dat4 V c).after 13 t = out4_13 (iblk4 V c 0 t) (iblk4 V c 1 t) (iblk4 V c 2 t) (iblk4 V c 3 t) (iblk4 V c 6 t) (iblk4 V c 7 t) (iblk4 V c 8 t) (iblk4 V c 9 t) := by dsimp only [dat4]

end Cert.KernelIdeal.Hand

end
-- ==== Proof.KI.Fold.lean ====
import proofs.«141970_g2173253451805_cont_8to1_1923_2_alg».proof.Proof.KI.Reg0Defs
import proofs.«141970_g2173253451805_cont_8to1_1923_2_alg».proof.Proof.KI.Reg1Defs
import proofs.«141970_g2173253451805_cont_8to1_1923_2_alg».proof.Proof.KI.Reg2Defs
import proofs.«141970_g2173253451805_cont_8to1_1923_2_alg».proof.Proof.KI.Reg3Defs
import proofs.«141970_g2173253451805_cont_8to1_1923_2_alg».proof.Proof.KI.Reg4Defs
import proofs.«141970_g2173253451805_cont_8to1_1923_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

section Region

variable {p : Fin 5} (d : (c : Dev nD) → Dat τ (Elt F) Unit ℕ (UR sig nD τ) ℕ (cfgs p) c) (W : Dev nD → Valuation τ sig (Elt F))

/-- What a kernel region leaves: each of its arrays at what its grid points produce, every other buffer as entered. -/
def exitW (c : Dev nD) : Valuation τ sig (Elt F) :=
  Pipeline.withArrays (cfgs p).spec c (W c) fun w => (d c).arrAt w (cfgs p).N

theorem exitW_arr (lf : Pipeline.LaunchFacts (nD := nD) (τ := τ) cfgs p) (c : Dev nD) (w : Fin (cfgs p).W) :
    exitW d W c (Proc.devRef .tc (Pipeline.arrRef (cfgs p).spec w)) = (d c).arrAt w (cfgs p).N :=
  Pipeline.withArrays_arr _ lf.win.arr_inj c _ _ w

theorem exitW_of_ne (c : Dev nD) (b : Ref sig .tc) (hb : ∀ w, Pipeline.arrRef (cfgs p).spec w ≠ b) :
    exitW d W c (Proc.devRef .tc b) = W c (Proc.devRef .tc b) :=
  Pipeline.withArrays_of_ne _ c _ _ b hb

/-- An input array is never written, and a buffer that is no array of the region is not touched. -/
theorem exitW_keep (lf : Pipeline.LaunchFacts (nD := nD) (τ := τ) cfgs p) (hA : ∀ c w, (d c).A w = W c (Proc.devRef .tc (Pipeline.arrRef (cfgs p).spec w))) (c : Dev nD) (b : Ref sig .tc)
    (hb : ∀ w, Pipeline.arrRef (cfgs p).spec w = b → ((cfgs p).win w).isOut = false) :
    exitW d W c (Proc.devRef .tc b) = W c (Proc.devRef .tc b) := by
  by_cases h : ∃ w, Pipeline.arrRef (cfgs p).spec w = b
  · obtain ⟨w, rfl⟩ := h
    exact (exitW_arr d W lf c w).trans (((d c).arrAt_in w (hb w rfl) _).trans (hA c w))
  · exact exitW_of_ne d W c b fun w e => h ⟨w, e⟩

end Region

variable (m : (ℓ : Loc nD τ sig) → Buf (Elt F) ℓ) (ρ : Dev nD → PrngReg)

abbrev rd (W : Dev nD → Valuation τ sig (Elt F)) : (c : Dev nD) → (b : Ref sig .tc) → Buf (Elt F) ((c : Thread nD τ).loc b) :=
  fun c b => W c b

abbrev W0 : Dev nD → Valuation τ sig (Elt F) := fun c b => (s₀ m ρ).mem ((c : Dev nD), b)
abbrev W1 : Dev nD → Valuation τ sig (Elt F) := fun c => StableHlo.after hostOps0 (W0 m ρ c)
abbrev V1 := rd (W1 m ρ)
def W2 : Dev nD → Valuation τ sig (Elt F) := exitW (p := 0) (dat0 (V1 m ρ)) (W1 m ρ)
abbrev V2 := rd (W2 m ρ)
def W3 : Dev nD → Valuation τ sig (Elt F) := exitW (p := 1) (dat1 (V2 m ρ)) (W2 m ρ)
abbrev V3 := rd (W3 m ρ)
def W4 : Dev nD → Valuation τ sig (Elt F) := exitW (p := 2) (dat2 (V3 m ρ)) (W3 m ρ)
abbrev W5 : Dev nD → Valuation τ sig (Elt F) := fun c => StableHlo.after hostOps3 (W4 m ρ c)
abbrev V5 := rd (W5 m ρ)
def W6 : Dev nD → Valuation τ sig (Elt F) := exitW (p := 3) (dat3 (V5 m ρ)) (W5 m ρ)
abbrev V6 := rd (W6 m ρ)
def W7 : Dev nD → Valuation τ sig (Elt F) := exitW (p := 4) (dat4 (V6 m ρ)) (W6 m ρ)

theorem W2_arr (c : Dev nD) (w : Fin cfg0.W) :
    W2 m ρ c (Proc.devRef .tc (Pipeline.arrRef spec0 w)) = (dat0 (V1 m ρ) c).arrAt w cfg0.N :=
  exitW_arr _ _ launch0 c w
theorem W3_arr (c : Dev nD) (w : Fin cfg1.W) :
    W3 m ρ c (Proc.devRef .tc (Pipeline.arrRef spec1 w)) = (dat1 (V2 m ρ) c).arrAt w cfg1.N :=
  exitW_arr _ _ launch1 c w
theorem W4_arr (c : Dev nD) (w : Fin cfg2.W) :
    W4 m ρ c (Proc.devRef .tc (Pipeline.arrRef spec2 w)) = (dat2 (V3 m ρ) c).arrAt w cfg2.N :=
  exitW_arr _ _ launch2 c w
theorem W6_arr (c : Dev nD) (w : Fin cfg3.W) :
    W6 m ρ c (Proc.devRef .tc (Pipeline.arrRef spec3 w)) = (dat3 (V5 m ρ) c).arrAt w cfg3.N :=
  exitW_arr _ _ launch3 c w
theorem W7_arr (c : Dev nD) (w : Fin cfg4.W) :
    W7 m ρ c (Proc.devRef .tc (Pipeline.arrRef spec4 w)) = (dat4 (V6 m ρ) c).arrAt w cfg4.N :=
  exitW_arr _ _ launch4 c w

theorem W1_keep (c : Dev nD) (b : Ref sig .tc) (hb : b ∉ hostOps0_W) :
    W1 m ρ c (Proc.devRef .tc b) = W0 m ρ c (Proc.devRef .tc b) :=
  StableHlo.after_of_writes_sub hostOps0 _ hostOps0_writes hb
theorem W2_keep (c : Dev nD) (b : Ref sig .tc) (hb : ∀ w, Pipeline.arrRef spec0 w = b → (cfg0.win w).isOut = false) :
    W2 m ρ c (Proc.devRef .tc b) = W1 m ρ c (Proc.devRef .tc b) :=
  exitW_keep _ _ launch0 (A_eq0 _) c b hb
theorem W3_keep (c : Dev nD) (b : Ref sig .tc) (hb : ∀ w, Pipeline.arrRef spec1 w = b → (cfg1.win w).isOut = false) :
    W3 m ρ c (Proc.devRef .tc b) = W2 m ρ c (Proc.devRef .tc b) :=
  exitW_keep _ _ launch1 (A_eq1 _) c b hb
theorem W4_keep (c : Dev nD) (b : Ref sig .tc) (hb : ∀ w, Pipeline.arrRef spec2 w = b → (cfg2.win w).isOut = false) :
    W4 m ρ c (Proc.devRef .tc b) = W3 m ρ c (Proc.devRef .tc b) :=
  exitW_keep _ _ launch2 (A_eq2 _) c b hb
theorem W5_keep (c : Dev nD) (b : Ref sig .tc) (hb : b ∉ hostOps3_W) :
    W5 m ρ c (Proc.devRef .tc b) = W4 m ρ c (Proc.devRef .tc b) :=
  StableHlo.after_of_writes_sub hostOps3 _ hostOps3_writes hb
theorem W6_keep (c : Dev nD) (b : Ref sig .tc) (hb : ∀ w, Pipeline.arrRef spec3 w = b → (cfg3.win w).isOut = false) :
    W6 m ρ c (Proc.devRef .tc b) = W5 m ρ c (Proc.devRef .tc b) :=
  exitW_keep _ _ launch3 (A_eq3 _) c b hb
theorem W7_keep (c : Dev nD) (b : Ref sig .tc) (hb : ∀ w, Pipeline.arrRef spec4 w = b → (cfg4.win w).isOut = false) :
    W7 m ρ c (Proc.devRef .tc b) = W6 m ρ c (Proc.devRef .tc b) :=
  exitW_keep _ _ launch4 (A_eq4 _) c b hb

/-- A buffer that no host stretch writes and that is no region's output array ends as launched. -/
theorem W7_launch (c : Dev nD) (b : Ref sig .tc) (h1 : b ∉ hostOps0_W) (h5 : b ∉ hostOps3_W)
    (k0 : ∀ w, Pipeline.arrRef spec0 w = b → (cfg0.win w).isOut = false) (k1 : ∀ w, Pipeline.arrRef spec1 w = b → (cfg1.win w).isOut = false)
    (k2 : ∀ w, Pipeline.arrRef spec2 w = b → (cfg2.win w).isOut = false) (k3 : ∀ w, Pipeline.arrRef spec3 w = b → (cfg3.win w).isOut = false)
    (k4 : ∀ w, Pipeline.arrRef spec4 w = b → (cfg4.win w).isOut = false) :
    W7 m ρ c (Proc.devRef .tc b) = m ((c : Thread nD τ).loc b) :=
  (W7_keep m ρ c b k4).trans <| (W6_keep m ρ c b k3).trans <| (W5_keep m ρ c b h5).trans <| (W4_keep m ρ c b k2).trans <|
    (W3_keep m ρ c b k1).trans <| (W2_keep m ρ c b k0).trans <| (W1_keep m ρ c b h1).trans rfl

end Cert.KernelIdeal.Hand

end
-- ==== Proof.KI.Reg0.lean ====
import proofs.«141970_g2173253451805_cont_8to1_1923_2_alg».proof.Proof.KI.Reg0Defs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The body only reads its inputs, so what it finds in one is what it leaves there.
theorem before0 (c : Dev nD) (w : Fin cfg0.W) (hw : w.val < 2) (t d) : (dat0 V c).before w t d = (dat0 V c).after w t := by
  rcases w with ⟨_ | _ | n, _⟩ <;>
    first
    | exact absurd hw (Nat.not_lt.mpr (Nat.le_add_left _ _))
    | exact ((dat0 V c).before_in_eq_fetched _ rfl (fun _ => rfl) (fun _ _ _ => rfl) (fun _ => rfl) t d).trans rfl

theorem cover0_2 (p0 : Vec F S512x512 .f32) (y : S512x512.Idx) :
    ∃ pc ∈ ([⟨r0_2, p0⟩] : List (View.Piece (Elt F) S512x512 .f32)), y ∈ pc.1.set :=
  View.cover_of_tiled [⟨r0_2, p0⟩] S512x512.size (by rfl) y

-- The one store is of the whole product block, so the buffer reads the stored product; the factors are only read.
theorem body_obligation0 (c : Dev nD) : BodyObligation (dat0 (F := F) V c) (defs₀ (F := F)) Variants.none () Set.univ := fun t => by
  rw [bigSep_W0, bigSep_W0]
  simp (disch := decide) only [before0 V c]
  rw [after0_0, after0_1, after0_2]
  generalize iblk0 V c 0 t = x0, iblk0 V c 1 t = x1
  show _ ⊢ wp _ _ _ (bodyAt0 t) fun _ => iprop((dat0 V c).Φ t.castSucc ∗ (dat0 V c).owesAt () t.castSucc ∗ _)
  simp only [bodyAt0, cc0__k1_body_eq_skeleton]; unfold cc0__k1_body_skel
  conv_lhs => unfold owns
  iintro ⟨HΦ, Ho, ⟨%_, %f0, %hf0, H0⟩, ⟨%_, %f1, %hf1, H1⟩, ⟨%_, %f2, -, H2⟩⟩
  subst hf0 hf1
  sl_exec
  sl_step
  isplitl [HΦ]; · iexact HΦ
  isplitl [Ho]; · iexact Ho
  isplitl [H0]; · iapply owns_intro; iexact H0
  isplitl [H1]; · iapply owns_intro; iexact H1
  unfold owns
  iexists _; isplitr; swap; · iexact H2
  ipureintro; exact View.read_writes_eq_canon _ _ _ (cover0_2 _)

end Cert.KernelIdeal.Hand

end
-- ==== Proof.KI.Reg1.lean ====
import proofs.«141970_g2173253451805_cont_8to1_1923_2_alg».proof.Proof.KI.Reg1Defs

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The body only reads its inputs, so what it finds in one is what it leaves there.
theorem before1 (c : Dev nD) (w : Fin cfg1.W) (hw : w.val < 3) (t d) : (dat1 V c).before w t d = (dat1 V c).after w t := by
  rcases w with ⟨_ | _ | _ | n, _⟩ <;>
    first
    | exact absurd hw (Nat.not_lt.mpr (Nat.le_add_left _ _))
    | exact ((dat1 V c).before_in_eq_fetched _ rfl (fun _ => rfl) (fun _ _ _ => rfl) (fun _ => rfl) t d).trans rfl

-- The one store is of the whole output block, so the buffer reads the stored payload; the inputs are only read.
theorem body_obligation1 (c : Dev nD) : BodyObligation (dat1 (F := F) V c) (defs₀ (F := F)) Variants.none () Set.univ := fun t => by
  rw [bigSep_W1, bigSep_W1]
  simp (disch := decide) only [before1 V c]
  rw [after1_0, after1_1, after1_2, after1_3]
  generalize iblk1 V c 0 t = x0, iblk1 V c 1 t = x1, iblk1 V c 2 t = x2
  show _ ⊢ wp _ _ _ (bodyAt1 t) fun _ => iprop((dat1 V c).Φ t.castSucc ∗ (dat1 V c).owesAt () t.castSucc ∗ _)
  simp only [bodyAt1, cc1__k2_body_eq_skeleton]; unfold cc1__k2_body_skel
  conv_lhs => unfold owns
  iintro ⟨HΦ, Ho, ⟨%_, %f0, %hf0, H0⟩, ⟨%_, %f1, %hf1, H1⟩, ⟨%_, %f2, %hf2, H2⟩, ⟨%_, %f3, -, H3⟩⟩
  subst hf0 hf1 hf2
  sl_exec
  sl_step
  isplitl [HΦ]; · iexact HΦ
  isplitl [Ho]; · iexact Ho
  isplitl [H0]; · iapply owns_intro; iexact H0
  isplitl [H1]; · iapply owns_intro; iexact H1
  isplitl [H2]; · iapply owns_intro; iexact H2
  unfold owns
  iexists _; isplitr; swap; · iexact H3
  ipureintro; exact View.read_writes_eq_canon _ _ _ (cover1_3 _)

end Cert.KernelIdeal.Hand

end
-- ==== Proof.KI.Reg2.lean ====
import proofs.«141970_g2173253451805_cont_8to1_1923_2_alg».proof.Proof.KI.Reg2Defs
import Idealize.ShloMosaic.Lib.Pipeline.FrameBody
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The body only reads its inputs, so what it finds in one is what it leaves there.
theorem before2 (c : Dev nD) (w : Fin cfg2.W) (hw : w.val < 4) (t d) : (dat2 V c).before w t d = (dat2 V c).after w t := by
  rcases w with ⟨_ | _ | _ | _ | n, _⟩ <;>
    first
    | exact absurd hw (Nat.not_lt.mpr (Nat.le_add_left _ _))
    | exact ((dat2 V c).before_in_eq_fetched _ rfl (fun _ => rfl) (fun _ _ _ => rfl) (fun _ => rfl) t d).trans rfl

theorem cover2_4 (p : Vec F S512x256 .f32) (y : S512x256.Idx) :
    ∃ pc ∈ ([⟨r2_4, p⟩] : List (View.Piece (Elt F) S512x256 .f32)), y ∈ pc.1.set :=
  View.cover_of_tiled [⟨r2_4, p⟩] S512x256.size (by rfl) y

theorem cover2_5 (p : Vec F S512x512 .f32) (y : S512x512.Idx) :
    ∃ pc ∈ ([⟨r2_5, p⟩] : List (View.Piece (Elt F) S512x512 .f32)), y ∈ pc.1.set :=
  View.cover_of_tiled [⟨r2_5, p⟩] S512x512.size (by rfl) y

theorem cover2_6 (p : Vec F S8x512 .f32) (y : S8x512.Idx) :
    ∃ pc ∈ ([⟨r2_6, p⟩] : List (View.Piece (Elt F) S8x512 .f32)), y ∈ pc.1.set :=
  View.cover_of_tiled [⟨r2_6, p⟩] S8x512.size (by rfl) y

theorem statsAt2_first (c : Dev nD) (t : Fin cfg2.N) (h0 : t.val = 0) :
    statsAt2 V c t.val t.isLt = upd2 (iblk2 V c 0 t) (iblk2 V c 1 t) (iblk2 V c 2 t) (iblk2 V c 3 t) := by
  obtain ⟨_ | n, hn⟩ := t
  · rfl
  · exact absurd h0 (Nat.succ_ne_zero n)

-- After the first point the running sums start from what the point before left.
theorem later2 (c : Dev nD) (t : Fin cfg2.N) (h0 : t.val ≠ 0) :
    ∃ xo, (∀ d, (dat2 V c).before 6 t d = xo) ∧
      statsAt2 V c t.val t.isLt = acc2 (iblk2 V c 0 t) (iblk2 V c 1 t) (iblk2 V c 2 t) (iblk2 V c 3 t) xo := by
  refine ⟨statsAt2 V c (t.val - 1) (Nat.lt_of_le_of_lt (Nat.sub_le _ _) t.isLt), fun d => ?_, ?_⟩
  · have hN : t.val < 8 := lt_of_lt_of_eq t.isLt (show cfg2.N = 8 from N_2)
    rw [Dat.before_out_kept _ 6 rfl t h0 (Bool.eq_false_iff.mpr fun h => by have := (flush2_6 _).mp h; dsimp only at this; omega)
      live2_6 (fun _ _ => rfl)]
    dsimp only [dat2]
  · obtain ⟨_ | n, hn⟩ := t
    · exact absurd rfl h0
    · rfl

-- At the first point the sums are stored, at a later one added to what the buffer holds; the other outputs are stored whole.
theorem body_obligation2 (c : Dev nD) : BodyObligation (dat2 (F := F) V c) (defs₀ (F := F)) Variants.none () Set.univ := fun t => by
  rw [bigSep_W2, bigSep_W2]
  have h6 : idle2 6 (grid2.coords t) = false := live2_6 _
  simp (disch := decide) only [before2 V c, h6]
  rw [after2_0, after2_1, after2_2, after2_3, after2_4, after2_5, after2_6]
  by_cases h0 : t.val = 0
  case' pos =>
    rw [statsAt2_first V c t h0]
    have hc1 := (hcond2_0 t).mpr h0
    have hc2 : ¬k2_cond2 (grid2.coords t) = 1#1 := fun h => (hcond2_1 t).mp h h0
  case' neg =>
    obtain ⟨xo, hb, hs⟩ := later2 V c t h0
    rw [hs]; simp only [hb]
    have hc1 : ¬k2_cond1 (grid2.coords t) = 1#1 := fun h => h0 ((hcond2_0 t).mp h)
    have hc2 := (hcond2_1 t).mpr h0
  all_goals
    generalize iblk2 V c 0 t = x0, iblk2 V c 1 t = x1, iblk2 V c 2 t = x2, iblk2 V c 3 t = x3
    show _ ⊢ wp _ _ _ (bodyAt2 t) fun _ => iprop((dat2 V c).Φ t.castSucc ∗ (dat2 V c).owesAt () t.castSucc ∗ _)
    simp only [bodyAt2, cc2__k3_body_eq_skeleton]; unfold cc2__k3_body_skel
    conv_lhs => unfold owns
    iintro ⟨HΦ, Ho, ⟨%_, %f0, %hf0, H0⟩, ⟨%_, %f1, %hf1, H1⟩, ⟨%_, %f2, %hf2, H2⟩, ⟨%_, %f3, %hf3, H3⟩, ⟨%_, %f4, -, H4⟩, ⟨%_, %f5, -, H5⟩, ⟨%_, %f6, %hf6, H6⟩⟩
    subst hf0 hf1 hf2 hf3
    try subst hf6
    sl_exec (disch := first | exact hc1 | exact hc2)
    sl_step
    isplitl [HΦ]; · iexact HΦ
    isplitl [Ho]; · iexact Ho
    isplitl [H0]; · iapply owns_intro; iexact H0
    isplitl [H1]; · iapply owns_intro; iexact H1
    isplitl [H2]; · iapply owns_intro; iexact H2
    isplitl [H3]; · iapply owns_intro; iexact H3
    unfold owns
    isplitl [H4]
    · iexists _; isplitr; swap; · iexact H4
      ipureintro; exact View.read_writes_eq_canon _ _ _ (cover2_4 _)
    isplitl [H5]
    · iexists _; isplitr; swap; · iexact H5
      ipureintro; exact View.read_writes_eq_canon _ _ _ (cover2_5 _)
    iexists _; isplitr; swap; · iexact H6
    ipureintro; exact View.read_writes_eq_canon _ _ _ (cover2_6 _)

end Cert.KernelIdeal.Hand

end
-- ==== Proof.KI.Reg3.lean ====
import proofs.«141970_g2173253451805_cont_8to1_1923_2_alg».proof.Proof.Gen.KernelIdeal.Launch
import proofs.«141970_g2173253451805_cont_8to1_1923_2_alg».proof.Proof.Gen.KernelIdeal.Skeleton
import proofs.«141970_g2173253451805_cont_8to1_1923_2_alg».proof.Proof.Gen.KernelIdeal.Points
import proofs.«141970_g2173253451805_cont_8to1_1923_2_alg».proof.Proof.KI.Reg3Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The body only reads its inputs, so what it finds in one is what it leaves there.
theorem before3 (c : Dev nD) (w : Fin cfg3.W) (hw : w.val < 2) (t d) : (dat3 V c).before w t d = (dat3 V c).after w t := by
  rcases w with ⟨_ | _ | n, _⟩ <;>
    first
    | exact absurd hw (Nat.not_lt.mpr (Nat.le_add_left _ _))
    | exact ((dat3 V c).before_in_eq_fetched _ rfl (fun _ => rfl) (fun _ _ _ => rfl) (fun _ => rfl) t d).trans rfl

-- The one store is of the whole product block, so the buffer reads the stored product; the factors are only read.
theorem body_obligation3 (c : Dev nD) : BodyObligation (dat3 (F := F) V c) (defs₀ (F := F)) Variants.none () Set.univ := fun t => by
  rw [bigSep_W3, bigSep_W3]
  simp (disch := decide) only [before3 V c]
  rw [after3_0, after3_1, after3_2]
  generalize iblk3 V c 0 t = x0, iblk3 V c 1 t = x1
  show _ ⊢ wp _ _ _ (bodyAt3 t) fun _ => iprop((dat3 V c).Φ t.castSucc ∗ (dat3 V c).owesAt () t.castSucc ∗ _)
  simp only [bodyAt3, cc3__k4_body_eq_skeleton]; unfold cc3__k4_body_skel
  conv_lhs => unfold owns
  iintro ⟨HΦ, Ho, ⟨%_, %f0, %hf0, H0⟩, ⟨%_, %f1, %hf1, H1⟩, ⟨%_, %f2, -, H2⟩⟩
  subst hf0 hf1
  sl_exec
  sl_step
  isplitl [HΦ]; · iexact HΦ
  isplitl [Ho]; · iexact Ho
  isplitl [H0]; · iapply owns_intro; iexact H0
  isplitl [H1]; · iapply owns_intro; iexact H1
  unfold owns
  iexists _; isplitr; swap; · iexact H2
  ipureintro; exact View.read_writes_eq_canon _ _ _ (cover3_2 _)

end Cert.KernelIdeal.Hand

end
-- ==== Proof.KI.Reg4.lean ====
import proofs.«141970_g2173253451805_cont_8to1_1923_2_alg».proof.Proof.Gen.KernelIdeal.Launch
import proofs.«141970_g2173253451805_cont_8to1_1923_2_alg».proof.Proof.Gen.KernelIdeal.Skeleton
import proofs.«141970_g2173253451805_cont_8to1_1923_2_alg».proof.Proof.Gen.KernelIdeal.Points
import proofs.«141970_g2173253451805_cont_8to1_1923_2_alg».proof.Proof.KI.Reg4Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The body only reads its inputs, so what it finds in one is what it leaves there.
theorem before4 (c : Dev nD) (w : Fin cfg4.W) (hw : w.val < 10) (t d) : (dat4 V c).before w t d = (dat4 V c).after w t := by
  rcases w with ⟨_ | _ | _ | _ | _ | _ | _ | _ | _ | _ | n, _⟩ <;>
    first
    | exact absurd hw (Nat.not_lt.mpr (Nat.le_add_left _ _))
    | exact ((dat4 V c).before_in_eq_fetched _ rfl (fun _ => rfl) (fun _ _ _ => rfl) (fun _ => rfl) t d).trans rfl

theorem cover4_10 (p0 : Vec F S256x512 .f32) (y : S256x512.Idx) :
    ∃ pc ∈ ([⟨r4_2, p0⟩] : List (View.Piece (Elt F) S256x512 .f32)), y ∈ pc.1.set :=
  View.cover_of_tiled [⟨r4_2, p0⟩] S256x512.size (by rfl) y

theorem cover4_11 (p0 : Vec F S256x2000 .f32) (y : S256x2000.Idx) :
    ∃ pc ∈ ([⟨r4_6, p0⟩] : List (View.Piece (Elt F) S256x2000 .f32)), y ∈ pc.1.set :=
  View.cover_of_tiled [⟨r4_6, p0⟩] S256x2000.size (by rfl) y

theorem cover4_12 (p0 : Vec F S256x2000 .f32) (y : S256x2000.Idx) :
    ∃ pc ∈ ([⟨r4_6, p0⟩] : List (View.Piece (Elt F) S256x2000 .f32)), y ∈ pc.1.set :=
  cover4_11 p0 y

theorem cover4_13 (p0 : Vec F S256x2000 .f32) (y : S256x2000.Idx) :
    ∃ pc ∈ ([⟨r4_6, p0⟩] : List (View.Piece (Elt F) S256x2000 .f32)), y ∈ pc.1.set :=
  cover4_11 p0 y

theorem body_obligation4 (c : Dev nD) : BodyObligation (dat4 (F := F) V c) (defs₀ (F := F)) Variants.none () Set.univ := fun t => by
  rw [bigSep_W4, bigSep_W4]
  simp (disch := decide) only [before4 V c]
  rw [after4_0, after4_1, after4_2, after4_3, after4_4, after4_5, after4_6, after4_7, after4_8, after4_9, after4_10, after4_11, after4_12, after4_13]
  generalize iblk4 V c 0 t = x0, iblk4 V c 1 t = x1, iblk4 V c 2 t = x2, iblk4 V c 3 t = x3, iblk4 V c 4 t = x4,
    iblk4 V c 5 t = x5, iblk4 V c 6 t = x6, iblk4 V c 7 t = x7, iblk4 V c 8 t = x8, iblk4 V c 9 t = x9
  show _ ⊢ wp _ _ _ (bodyAt4 t) fun _ => iprop((dat4 V c).Φ t.castSucc ∗ (dat4 V c).owesAt () t.castSucc ∗ _)
  simp only [bodyAt4, cc4__k5_body_eq_skeleton]; unfold cc4__k5_body_skel
  simp only [k4_part1_eq_skeleton]; unfold k4_part1_skel
  simp only [k4_part2_eq_skeleton]; unfold k4_part2_skel
  conv_lhs => unfold owns
  iintro ⟨HΦ, Ho, ⟨%_, %f0, %hf0, H0⟩, ⟨%_, %f1, %hf1, H1⟩, ⟨%_, %f2, %hf2, H2⟩, ⟨%_, %f3, %hf3, H3⟩, ⟨%_, %f4, %hf4, H4⟩, ⟨%_, %f5, %hf5, H5⟩, ⟨%_, %f6, %hf6, H6⟩, ⟨%_, %f7, %hf7, H7⟩, ⟨%_, %f8, %hf8, H8⟩, ⟨%_, %f9, %hf9, H9⟩, ⟨%_, %f10, -, H10⟩, ⟨%_, %f11, -, H11⟩, ⟨%_, %f12, -, H12⟩, ⟨%_, %f13, -, H13⟩⟩
  subst hf0 hf1 hf2 hf3 hf4 hf5 hf6 hf7 hf8 hf9
  sl_exec
  sl_step
  isplitl [HΦ]; · iexact HΦ
  isplitl [Ho]; · iexact Ho
  isplitl [H0]; · iapply owns_intro; iexact H0
  isplitl [H1]; · iapply owns_intro; iexact H1
  isplitl [H2]; · iapply owns_intro; iexact H2
  isplitl [H3]; · iapply owns_intro; iexact H3
  isplitl [H4]; · iapply owns_intro; iexact H4
  isplitl [H5]; · iapply owns_intro; iexact H5
  isplitl [H6]; · iapply owns_intro; iexact H6
  isplitl [H7]; · iapply owns_intro; iexact H7
  isplitl [H8]; · iapply owns_intro; iexact H8
  isplitl [H9]; · iapply owns_intro; iexact H9
  unfold owns
  isplitl [H10]
  · iexists _; isplitr; swap; · iexact H10
    ipureintro; exact View.read_writes_eq_canon _ _ _ (cover4_10 _)
  isplitl [H11]
  · iexists _; isplitr; swap; · iexact H11
    ipureintro; exact View.read_writes_eq_canon _ _ _ (cover4_11 _)
  isplitl [H12]
  · iexists _; isplitr; swap; · iexact H12
    ipureintro; exact View.read_writes_eq_canon _ _ _ (cover4_12 _)
  iexists _; isplitr; swap; · iexact H13
  ipureintro; exact View.read_writes_eq_canon _ _ _ (cover4_13 _)

end Cert.KernelIdeal.Hand

end
-- ==== Proof.KI.Run.lean ====
import proofs.«141970_g2173253451805_cont_8to1_1923_2_alg».proof.Proof.KI.Fold
import proofs.«141970_g2173253451805_cont_8to1_1923_2_alg».proof.Proof.KI.Reg0
import proofs.«141970_g2173253451805_cont_8to1_1923_2_alg».proof.Proof.KI.Reg1
import proofs.«141970_g2173253451805_cont_8to1_1923_2_alg».proof.Proof.KI.Reg2
import proofs.«141970_g2173253451805_cont_8to1_1923_2_alg».proof.Proof.KI.Reg3
import proofs.«141970_g2173253451805_cont_8to1_1923_2_alg».proof.Proof.KI.Reg4

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each region's proof data, at the contents the region is entered with. -/
def pdats : (p : Fin 5) → (c : Dev nD) → Dat τ (Elt F) Unit ℕ (UR sig nD τ) ℕ (Pipeline.pin (pcfgs (F := F)) adm p) c
  | ⟨0, _⟩ => dat0 (V1 m ρ)
  | ⟨1, _⟩ => dat1 (V2 m ρ)
  | ⟨2, _⟩ => dat2 (V3 m ρ)
  | ⟨3, _⟩ => dat3 (V5 m ρ)
  | ⟨4, _⟩ => dat4 (V6 m ρ)
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
/-- Between two items of @main every buffer holds `W`. -/
abbrev T (W : Dev nD → Valuation τ sig (Elt F)) (c : Dev nD) : sProp 𝕄 :=
  iprop(StableHlo.held (c : Thread nD τ) (Pipeline.ucRefs τ sig) (W c) ∗ R c)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- A kernel region as one item of @main: entered with the buffers at `W`, it leaves them at `exitW`. -/
def reg (p : Fin 5) (lf : Pipeline.LaunchFacts (nD := nD) (τ := τ) cfgs p) (W : Dev nD → Valuation τ sig (Elt F))
    (hbody : ∀ c, BodyObligation (pdats m ρ p c) (defs₀ (F := F)) Variants.none () Set.univ)
    (hA : ∀ c w, (pdats m ρ p c).A w = W c (Proc.devRef .tc (Pipeline.arrRef (cfgs p).spec w)))
    (hΦ : ∀ c t, (pdats m ρ p c).Φ t = Pipeline.ΦA (cfgs p).spec c)
    (hq : ∀ c w, (pdats m ρ p c).q w = fullShare) (howed : ∀ c t, (pdats m ρ p c).owed t = 0)
    (hrec : ∀ c t, (pdats m ρ p c).recorded t = Set.univ) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre := T W
  post := T (exitW (pdats m ρ p) W)
  X c := iprop(∃ r, prngReg c r)
  Y c := iprop(∃ r, prngReg c r)
  Z c := Pipeline.unscopedRest (Ix := Unit) (Name := ℕ) (U := UR sig nD τ) (Lvl := ℕ) (cfgs p).spec c (rd W c)
  hentry c := by
    rw [Pipeline.ownSems0_none]
    have hsplit := Pipeline.arrays_of_unscopedBufs (p := p) (pcfgs (F := F)) adm (pdats m ρ) lf.win lf.arr_whole c
      ((pdats m ρ p c).share_full (hq c)) (rd W c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun _ _ => Or.inl (hrec c 0 ▸ trivial)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (rd W c) (rd (exitW (pdats m ρ p) W) c) ((pdats m ρ p c).arrAt · (cfgs p).N)
      (fun w => (exitW_arr (pdats m ρ p) W lf c w).symm)
      (fun b hb => exitW_of_ne (pdats m ρ p) W c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

/-- @main's seven items in order: a host stretch, three regions, a host stretch, two regions. -/
abbrev items : List (Pipeline.Seg (pcfgs (F := F)) adm (pdats m ρ) () defs₀ 𝒱₀ L lv) :=
  [ .host (hseg hostOps0 hostOps0_sub hostOps0_fresh (W0 m ρ)),
    .region (reg m ρ 0 launch0 (W1 m ρ) (body_obligation0 _) (A_eq0 _) (fun _ _ => rfl) (fun _ _ => rfl) (fun _ _ => rfl) fun _ _ => rfl),
    .region (reg m ρ 1 launch1 (W2 m ρ) (body_obligation1 _) (A_eq1 _) (fun _ _ => rfl) (fun _ _ => rfl) (fun _ _ => rfl) fun _ _ => rfl),
    .region (reg m ρ 2 launch2 (W3 m ρ) (body_obligation2 _) (A_eq2 _) (fun _ _ => rfl) (fun _ _ => rfl) (fun _ _ => rfl) fun _ _ => rfl),
    .host (hseg hostOps3 hostOps3_sub hostOps3_fresh (W4 m ρ)),
    .region (reg m ρ 3 launch3 (W5 m ρ) (body_obligation3 _) (A_eq3 _) (fun _ _ => rfl) (fun _ _ => rfl) (fun _ _ => rfl) fun _ _ => rfl),
    .region (reg m ρ 4 launch4 (W6 m ρ) (body_obligation4 _) (A_eq4 _) (fun _ _ => rfl) (fun _ _ => rfl) (fun _ _ => rfl) fun _ _ => rfl) ]
theorem main_run (c : Dev nD) : main (F := F) c = Pipeline.Seg.run (items m ρ) := (main_chain c).trans (by chain_rfl)

set_option backward.isDefEq.respectTransparency.types false in
/-- The launch: the seven items chained, from the launch contents to `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := T (W0 m ρ))
    (Tₙ := fun c => iprop(StableHlo.held (c : Thread nD τ) (Pipeline.ucRefs τ sig) (W7 m ρ c) ∗ ∃ r, prngReg c r))
    (hch := ⟨fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- The fifteen argument arrays: no host stretch writes them and no region has one as an output window's array. -/
abbrev args : List (Ref sig .tc) := [main_arg0, main_arg1, main_arg2, main_arg3, main_arg4, main_arg5, main_arg6, main_arg7,
  main_arg8, main_arg9, main_arg10, main_arg11, main_arg12, main_arg13, main_arg14]

/-- After a run that ends at the last boundary's contents, an argument array is as launched. -/
theorem arg_kept {s : MemSt nD τ sig (Elt F)} (h : ∀ c : Dev nD, ∀ b ∈ Pipeline.ucRefs τ sig, s.mem (((c : Thread nD τ)).1, b) = W7 m ρ c b)
    (c : Dev nD) (b : Ref sig .tc) (hb : b ∈ args) : s.mem ((c.tc : Thread nD τ).loc b) = m ((c.tc : Thread nD τ).loc b) := by
  simp only [args, List.mem_cons, List.not_mem_nil, or_false] at hb
  rcases hb with rfl | rfl | rfl | rfl | rfl | rfl | rfl | rfl | rfl | rfl | rfl | rfl | rfl | rfl | rfl <;>
    exact (h c _ (mem_uc _ (by decide))).trans
      (W7_launch m ρ c _ (by decide) (by decide) (by decide) (by decide) (by decide) (by decide) (by decide))

/-- The frame claim at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => by
    have k := arg_kept m ρ h c
    exact ⟨k _ (by decide), k _ (by decide), k _ (by decide), k _ (by decide), k _ (by decide), k _ (by decide), k _ (by decide),
      k _ (by decide), k _ (by decide), k _ (by decide), k _ (by decide), k _ (by decide), k _ (by decide), k _ (by decide), k _ (by decide)⟩)
    (run_all m ρ)

end Cert.KernelIdeal.Hand

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev A2 (a b : ℕ) : Type := (⟨2, ![a, b]⟩ : Shape).Idx → EReal

abbrev A1 (a : ℕ) : Type := (⟨1, ![a]⟩ : Shape).Idx → EReal

def z0 : EReal := Ideal.ofBits .f32 0x00000000#32

def c001 : EReal := Ideal.ofBits .f32 0x3C23D70A#32

def cN : EReal := Ideal.ofBits .f32 0x45800000#32

def ceps : EReal := Ideal.ofBits .f32 0x3727C5AC#32

def chi : EReal := Ideal.ofBits .f32 0x49742400#32

/-- The matrix product, entry by entry a sum over the contracted index. -/
def mm {a k b : ℕ} (x : A2 a k) (w : A2 k b) : A2 a b :=
  fun j => ∑ l : Fin k, x (ix2 (j 0) l) * w (ix2 l (j 1))

/-- The leaky rectifier: v where v > 0, else the slope literal times v. -/
def leaky1 (v : EReal) : EReal := Scalar.select (Ideal.cmp .ogt v z0) v (c001 * v)

def leaky {a b : ℕ} (x : A2 a b) : A2 a b := fun j => leaky1 (x j)

def H1 (x : A2 4096 2000) (adj : A2 4096 4096) (w1 : A2 2000 512) : A2 4096 512 := leaky (mm adj (mm x w1))

def head (adj : A2 4096 4096) (h1 : A2 4096 512) (g : A2 512 128) : A2 4096 128 := leaky (mm adj (mm h1 g))

/-- The Gram matrix of the rows of mu. -/
def gram (mu : A2 4096 128) : A2 4096 4096 := fun j => ∑ l : Fin 128, mu (ix2 (j 0) l) * mu (ix2 (j 1) l)

def dense (mu : A2 4096 128) (fw : A2 128 512) (fb : Fin 512 → EReal) : A2 4096 512 := fun j => mm mu fw j + fb (j 1)

def csum (h : A2 4096 512) (j : Fin 512) : EReal := ∑ i : Fin 4096, h (ix2 i j)

def csumsq (h : A2 4096 512) (j : Fin 512) : EReal := ∑ i : Fin 4096, h (ix2 i j) * h (ix2 i j)

/-- Column normalisation as the kernel forms it: variance as E[h²] − (E h)², times the reciprocal root. -/
def bnK (h : A2 4096 512) (s sq gam bet : Fin 512 → EReal) : A2 4096 512 := fun j =>
  leaky1 ((h j - Ideal.div (s (j 1)) cN)
      * Ideal.rsqrt (Ideal.div (sq (j 1)) cN - Ideal.div (s (j 1)) cN * Ideal.div (s (j 1)) cN + ceps)
      * gam (j 1) + bet (j 1))

/-- Column normalisation as the reference forms it: the centred second moment, divided by the root. -/
def bnR (h : A2 4096 512) (gam bet : Fin 512 → EReal) : A2 4096 512 := fun j =>
  leaky1 (Ideal.div (h j - Ideal.div (csum h (j 1)) cN)
      (Ideal.sqrt (Ideal.div (∑ i : Fin 4096, (h (ix2 i (j 1)) - Ideal.div (csum h (j 1)) cN)
          * (h (ix2 i (j 1)) - Ideal.div (csum h (j 1)) cN)) cN + ceps))
      * gam (j 1) + bet (j 1))

def lin (o : A2 4096 512) (w : A2 512 2000) (b : Fin 2000 → EReal) : A2 4096 2000 := fun j => mm o w j + b (j 1)

def softplus1 (x : EReal) : EReal := max x z0 + Ideal.log1p (Ideal.exp (-(max (x - z0) (-(x - z0)))))

def clip1 (x : EReal) : EReal := min chi (max ceps x)

def thetaOf (o : A2 4096 512) (tw : A2 512 2000) (tb : Fin 2000 → EReal) : A2 4096 2000 :=
  fun j => clip1 (softplus1 (lin o tw tb j))

def meanOf (o : A2 4096 512) (mw : A2 512 2000) (mb : Fin 2000 → EReal) : A2 4096 2000 :=
  fun j => clip1 (Ideal.exp (lin o mw mb j))

def piOf (o : A2 4096 512) (mw : A2 512 2000) (mb pw pb : Fin 2000 → EReal) : A2 4096 2000 :=
  fun j => Ideal.logistic (lin o mw mb j * pw (j 1) + pb (j 1))

/-- The left and right halves of the columns, the transpose, and two blocks set side by side. -/
def colsL (x : A2 4096 256) : A2 4096 128 := fun j => x (ix2 (j 0) ⟨(j 1).val, lt_trans (idx2_lt1 j) (by norm_num)⟩)

def colsR (x : A2 4096 256) : A2 4096 128 := fun j => x (ix2 (j 0) ⟨(j 1).val + 128, by have := idx2_lt1 j; omega⟩)

def tr (x : A2 4096 128) : A2 128 4096 := fun j => x (ix2 (j 1) (j 0))

def catC (p q : A2 512 128) : A2 512 256 := fun j =>
  if h : (j 1).val < 128 then p (ix2 (j 0) ⟨(j 1).val, h⟩) else q (ix2 (j 0) ⟨(j 1).val - 128, by have := idx2_lt1 j; omega⟩)

/-- The fifteen arguments, each vector as a function of its one coordinate. -/
structure Args where
  x : A2 4096 2000
  adj : A2 4096 4096
  w1 : A2 2000 512
  g2 : A2 512 128
  g2s : A2 512 128
  fw : A2 128 512
  fb : Fin 512 → EReal
  gam : Fin 512 → EReal
  bet : Fin 512 → EReal
  tw : A2 512 2000
  tb : Fin 2000 → EReal
  mw : A2 512 2000
  mb : Fin 2000 → EReal
  pw : Fin 2000 → EReal
  pb : Fin 2000 → EReal

namespace Args
variable (a : Args)

def h1 : A2 4096 512 := H1 a.x a.adj a.w1

def MU : A2 4096 128 := head a.adj a.h1 a.g2

def LV : A2 4096 128 := head a.adj a.h1 a.g2s

def HH : A2 4096 512 := dense a.MU a.fw a.fb

def OUTK : A2 4096 512 := bnK a.HH (csum a.HH) (csumsq a.HH) a.gam a.bet

def OUTR : A2 4096 512 := bnR a.HH a.gam a.bet
end Args

/-- Every entry is a real number (neither infinity). -/
def AllReal {s : Shape} (v : s.Idx → EReal) : Prop := ∀ i, ∃ r : ℝ, v i = (r : EReal)

end Cert.Spec

end
-- ==== Proof.KI.ChainLib.lean ====
import proofs.«141970_g2173253451805_cont_8to1_1923_2_alg».proof.Proof.Gen.KernelIdeal.Launch
import proofs.«141970_g2173253451805_cont_8to1_1923_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.KernelIdeal.Val

open Idealize.ShloMosaic Idealize.ShloMosaic.TcCoe Idealize.ShloMosaic.ValueIdx Idealize.SL.Sem
open scoped BigOperators

theorem hz : (![0, 0] : Fin 2 → Nat) = fun _ => 0 := funext fun a => by fin_cases a <;> rfl

-- reading through the whole rectangle at offset zero is the identity, and one write through it leaves what was written
theorem ld_whole {n0 n1 : Nat} {Val : EltTy → Type} {e : EltTy} (inb) (x : (⟨2, ![n0, n1]⟩ : Shape).Idx → Val e) :
    View.ld x (Rect.unit (s := ⟨2, ![n0, n1]⟩) ![0, 0] (Shape.size ⟨2, ![n0, n1]⟩) inb) = x := View.ld_unit_zero hz inb x
theorem canon_whole {n0 n1 : Nat} {e : EltTy} (inb) (w : Vec Ideal ⟨2, ![n0, n1]⟩ e) :
    (View.canon [⟨Rect.unit (s := ⟨2, ![n0, n1]⟩) ![0, 0] (Shape.size ⟨2, ![n0, n1]⟩) inb, w⟩] : Vec Ideal ⟨2, ![n0, n1]⟩ e) = w :=
  View.canon_unit_zero hz inb w

-- a product into zero whose contraction pairs the left factor's columns with the right factor's rows, at (p, q)
theorem mm_apply {m k n : Nat} (D : DotDims ⟨2, ![m, k]⟩ ⟨2, ![k, n]⟩ ⟨2, ![m, n]⟩)
    (hr : D.contr.rank = 1) (hs : D.contr.size ⟨0, by omega⟩ = k) (hl : D.lhsContracting = [1]) (hrc : D.rhsContracting = [0])
    (h0 : ∀ j κ, (D.lhsIdx j κ 0).val = (j 0).val) (h1 : ∀ j κ, (D.rhsIdx j κ 1).val = (j 1).val)
    (A : FVec Ideal ⟨2, ![m, k]⟩ .f32) (B : FVec Ideal ⟨2, ![k, n]⟩ .f32) (p : Fin m) (q : Fin n) :
    matmul D none A B (constant (F := Ideal) ⟨2, ![m, n]⟩ .f32 0x00000000#32) (ix2 p q) = ∑ l : Fin k, A (ix2 p l) * B (ix2 l q) := by
  simp only [matmul]
  rw [Ideal.matmul_constant_zero_apply, ← Equiv.sum_comp (contrEquiv1 D k hr hs).symm]
  refine Finset.sum_congr rfl fun l _ => ?_
  have hk := contrEquiv1_symm_val D k hr hs l
  exact congr (congrArg _ (congrArg A (Shape.idx_ext₂ (h0 _ _) ((D.lhsIdx_val_of_single hl _ _).trans hk))))
    (congrArg B (Shape.idx_ext₂ ((D.rhsIdx_val_of_single hrc _ _).trans hk) (h1 _ _)))

-- functions that agree at (p, q) and (tv R + p, q) agree wherever the second index is the first moved down tv blocks of R rows
theorem rows_ext {R M n : Nat} {α : Type} (f : (⟨2, ![R, n]⟩ : Shape).Idx → α) (g : (⟨2, ![M, n]⟩ : Shape).Idx → α) (tv : Nat)
    (h : ∀ (p : Fin R) (r : Fin M) (q : Fin n), r.val = tv * R + p.val → f (ix2 p q) = g (ix2 r q))
    (y : (⟨2, ![R, n]⟩ : Shape).Idx) (i : (⟨2, ![M, n]⟩ : Shape).Idx)
    (hi0 : (i 0).val = tv * R + (y 0).val) (hi1 : (i 1).val = (y 1).val) : f y = g i := by
  rw [eq_ix2 y, eq_ix2 i, show i 1 = y 1 from Fin.ext hi1]
  exact h _ _ _ hi0

-- row r of an array of N blocks of R rows lies in block r / R
theorem rows_cover {R M n N : Nat} (hR : 0 < R) (hM : M = N * R) (i : (⟨2, ![M, n]⟩ : Shape).Idx) (idx : Fin N → Fin 2 → Nat)
    (h : ∀ t, idx t 0 = t.val ∧ idx t 1 = 0) :
    ∃ t : Fin N, ∀ a : Fin 2, idx t a * ![R, n] a ≤ (i a).val ∧ (i a).val < idx t a * ![R, n] a + ![R, n] a := by
  have hi0 : (i 0).val < N * R := hM ▸ idx2_lt0 i
  refine ⟨⟨(i 0).val / R, Nat.div_lt_of_lt_mul (Nat.mul_comm N R ▸ hi0)⟩, fun a => ?_⟩
  match a with
  | ⟨0, _⟩ => exact (h _).1 ▸ ⟨Nat.div_mul_le_self _ R, Nat.lt_div_mul_add hR⟩
  | ⟨1, _⟩ =>
    have hi1 : (i 1).val < n := idx2_lt1 i
    show idx _ 1 * n ≤ (i 1).val ∧ (i 1).val < idx _ 1 * n + n
    rw [(h _).2]; omega

end Cert.KernelIdeal.Val

namespace Cert.KernelIdeal.Val.Compose

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

theorem congr3 {α β γ δ : Sort _} (f : α → β → γ → δ) {a a' : α} {b b' : β} {c c' : γ}
    (ha : a = a') (hb : b = b') (hc : c = c') : f a b c = f a' b' c' := by subst ha hb hc; rfl
theorem congr5 {α β γ δ ε ζ : Sort _} (f : α → β → γ → δ → ε → ζ) {a a' : α} {b b' : β} {c c' : γ} {d d' : δ} {e e' : ε}
    (ha : a = a') (hb : b = b') (hc : c = c') (hd : d = d') (he : e = e') : f a b c d e = f a' b' c' d' e' := by
  subst ha hb hc hd he; rfl

-- a vector and its one-row matrix have the same row-major positions
theorem row_of_shapeCast {n : ℕ} (x : (⟨1, ![n]⟩ : Shape).Idx → EReal)
    (h : (⟨1, ![n]⟩ : Shape).ShapeCasts ⟨2, ![1, n]⟩) (j : Fin n) :
    shapeCast ⟨2, ![1, n]⟩ x h (ix2 0 j) = x (ix1 j) :=
  shapeCast_apply x h (ix2 0 j) (ix1 j) (by
    rw [Shape.rowMajor_val_one, Shape.rowMajor_val_two]
    show j.val = 0 * n + j.val
    omega)

theorem concat_eq_catC (p q : Spec.A2 512 128) :
    (concatenate S512x256 1 [⟨S512x128, p⟩, ⟨S512x128, q⟩] concatenates_S512x128_S512x128_S512x256_d1 : Spec.A2 512 256)
      = Spec.catC p q := by
  funext j
  unfold Spec.catC
  by_cases h : (j 1).val < 128
  · rw [dif_pos h]
    exact concatenate_pair_apply_left (1 : Fin S512x256.rank) p q _ j rfl _ (fun b => by
      match b with
      | ⟨0, _⟩ => rfl
      | ⟨1, _⟩ => rfl)
  · rw [dif_neg h]
    exact concatenate_pair_apply_right (1 : Fin S512x256.rank) p q _ j rfl rfl _ (fun b hb => by
      match b with
      | ⟨0, _⟩ => rfl
      | ⟨1, _⟩ => exact absurd rfl hb) (by
        show (j 1).val - 128 + 128 = (j 1).val
        omega)

theorem slice0_eq_colsL (x : Spec.A2 4096 256) :
    (extractStridedSlice S4096x128 ![0, 0] x slices_S4096x256_S4096x128_0_0 : Spec.A2 4096 128) = Spec.colsL x :=
  funext fun j => extractStridedSlice_apply _ x _ j _ (fun a => by
    match a with
    | ⟨0, _⟩ => exact (Nat.zero_add _).symm
    | ⟨1, _⟩ => exact (Nat.zero_add _).symm)

theorem slice128_eq_colsR (x : Spec.A2 4096 256) :
    (extractStridedSlice S4096x128 ![0, 128] x slices_S4096x256_S4096x128_0_128 : Spec.A2 4096 128) = Spec.colsR x :=
  funext fun j => extractStridedSlice_apply _ x _ j _ (fun a => by
    match a with
    | ⟨0, _⟩ => exact (Nat.zero_add _).symm
    | ⟨1, _⟩ => exact Nat.add_comm _ _)

theorem transpose_eq_tr (x : Spec.A2 4096 128) :
    (transpose S128x4096 [1, 0] x transposes_S4096x128_S128x4096_1_0 : Spec.A2 128 4096) = Spec.tr x :=
  funext fun j => transpose_apply _ x _ j _ (fun b => by
    match b with
    | ⟨0, _⟩ => rfl
    | ⟨1, _⟩ => rfl)

variable (Wv : Valuation τ sig (Elt Ideal))

theorem host0_v0 : (StableHlo.after (hostOps0 (F := Ideal)) Wv (Proc.devRef .tc main_v0) : Spec.A2 512 256)
    = Spec.catC (Wv (Proc.devRef .tc main_arg3)) (Wv (Proc.devRef .tc main_arg4)) := by
  refine Eq.trans ?_ (concat_eq_catC _ _)
  dsimp only [hostOps0]; after_results <;> rfl

theorem host0_v1 (j : Fin 512) : (StableHlo.after (hostOps0 (F := Ideal)) Wv (Proc.devRef .tc main_v1) : Spec.A2 1 512) (ix2 0 j)
    = Wv (Proc.devRef .tc main_arg6) (ix1 j) := by
  refine (congrFun ?_ _).trans (row_of_shapeCast _ shapeCasts_S512_S1x512 j)
  dsimp only [hostOps0]; after_results <;> rfl
theorem host0_v2 (j : Fin 512) : (StableHlo.after (hostOps0 (F := Ideal)) Wv (Proc.devRef .tc main_v2) : Spec.A2 1 512) (ix2 0 j)
    = Wv (Proc.devRef .tc main_arg7) (ix1 j) := by
  refine (congrFun ?_ _).trans (row_of_shapeCast _ shapeCasts_S512_S1x512 j)
  dsimp only [hostOps0]; after_results <;> rfl
theorem host0_v3 (j : Fin 512) : (StableHlo.after (hostOps0 (F := Ideal)) Wv (Proc.devRef .tc main_v3) : Spec.A2 1 512) (ix2 0 j)
    = Wv (Proc.devRef .tc main_arg8) (ix1 j) := by
  refine (congrFun ?_ _).trans (row_of_shapeCast _ shapeCasts_S512_S1x512 j)
  dsimp only [hostOps0]; after_results <;> rfl
theorem host0_v4 (j : Fin 2000) : (StableHlo.after (hostOps0 (F := Ideal)) Wv (Proc.devRef .tc main_v4) : Spec.A2 1 2000) (ix2 0 j)
    = Wv (Proc.devRef .tc main_arg10) (ix1 j) := by
  refine (congrFun ?_ _).trans (row_of_shapeCast _ shapeCasts_S2000_S1x2000 j)
  dsimp only [hostOps0]; after_results <;> rfl
theorem host0_v5 (j : Fin 2000) : (StableHlo.after (hostOps0 (F := Ideal)) Wv (Proc.devRef .tc main_v5) : Spec.A2 1 2000) (ix2 0 j)
    = Wv (Proc.devRef .tc main_arg12) (ix1 j) := by
  refine (congrFun ?_ _).trans (row_of_shapeCast _ shapeCasts_S2000_S1x2000 j)
  dsimp only [hostOps0]; after_results <;> rfl
theorem host0_v6 (j : Fin 2000) : (StableHlo.after (hostOps0 (F := Ideal)) Wv (Proc.devRef .tc main_v6) : Spec.A2 1 2000) (ix2 0 j)
    = Wv (Proc.devRef .tc main_arg13) (ix1 j) := by
  refine (congrFun ?_ _).trans (row_of_shapeCast _ shapeCasts_S2000_S1x2000 j)
  dsimp only [hostOps0]; after_results <;> rfl
theorem host0_v7 (j : Fin 2000) : (StableHlo.after (hostOps0 (F := Ideal)) Wv (Proc.devRef .tc main_v7) : Spec.A2 1 2000) (ix2 0 j)
    = Wv (Proc.devRef .tc main_arg14) (ix1 j) := by
  refine (congrFun ?_ _).trans (row_of_shapeCast _ shapeCasts_S2000_S1x2000 j)
  dsimp only [hostOps0]; after_results <;> rfl

theorem host3_v11 : (StableHlo.after (hostOps3 (F := Ideal)) Wv (Proc.devRef .tc main_v11) : Spec.A2 4096 128)
    = Spec.colsL (Wv (Proc.devRef .tc main_v10_0)) := by
  refine Eq.trans ?_ (slice0_eq_colsL _)
  dsimp only [hostOps3]; after_results <;> rfl
theorem host3_v12 : (StableHlo.after (hostOps3 (F := Ideal)) Wv (Proc.devRef .tc main_v12) : Spec.A2 4096 128)
    = Spec.colsR (Wv (Proc.devRef .tc main_v10_0)) := by
  refine Eq.trans ?_ (slice128_eq_colsR _)
  dsimp only [hostOps3]; after_results <;> rfl
theorem host3_v13 : (StableHlo.after (hostOps3 (F := Ideal)) Wv (Proc.devRef .tc main_v13) : Spec.A2 128 4096)
    = Spec.tr (Spec.colsL (Wv (Proc.devRef .tc main_v10_0))) := by
  refine Eq.trans ?_ ((transpose_eq_tr _).trans (congrArg Spec.tr (slice0_eq_colsL _)))
  dsimp only [hostOps3]; after_results <;> rfl

end Cert.KernelIdeal.Val.Compose

end
-- ==== Proof.SpecIdx.lean ====
import proofs.«141970_g2173253451805_cont_8to1_1923_2_alg».proof.Proof.Spec

noncomputable section

namespace Cert.Spec

open Idealize.ShloMosaic Idealize.ShloMosaic.ValueIdx

theorem catC_left (p q : A2 512 128) (l : Fin 512) (c : Fin 256) (hc : c.val < 128) :
    catC p q (ix2 l c) = p (ix2 l ⟨c.val, hc⟩) :=
  dif_pos hc

theorem catC_right (p q : A2 512 128) (l : Fin 512) (c : Fin 128) (hc : c.val + 128 < 256) :
    catC p q (ix2 l ⟨c.val + 128, hc⟩) = q (ix2 l c) := by
  have hn : ¬ c.val + 128 < 128 := by omega
  have e : catC p q (ix2 l ⟨c.val + 128, hc⟩) = q (ix2 l ⟨c.val + 128 - 128, by omega⟩) := dif_neg hn
  exact e.trans (congrArg (fun k => q (ix2 l k)) (Fin.ext (show c.val + 128 - 128 = c.val by omega)))

theorem colsL_leaky (x : A2 4096 256) : colsL (leaky x) = leaky (colsL x) := rfl

theorem colsR_leaky (x : A2 4096 256) : colsR (leaky x) = leaky (colsR x) := rfl

theorem colsL_mm (adj : A2 4096 4096) (t : A2 4096 256) : colsL (mm adj t) = mm adj (colsL t) := rfl

theorem colsR_mm (adj : A2 4096 4096) (t : A2 4096 256) : colsR (mm adj t) = mm adj (colsR t) := rfl

/-- A column of a product takes that column of the right factor only. -/
theorem colsL_mm_catC (h : A2 4096 512) (p q : A2 512 128) : colsL (mm h (catC p q)) = mm h p := by
  funext j
  show ∑ l : Fin 512, h (ix2 (j 0) l) * catC p q (ix2 l ⟨(j 1).val, _⟩) = ∑ l : Fin 512, h (ix2 (j 0) l) * p (ix2 l (j 1))
  refine Finset.sum_congr rfl fun l _ => ?_
  rw [catC_left p q l _ (idx2_lt1 j)]; rfl

theorem colsR_mm_catC (h : A2 4096 512) (p q : A2 512 128) : colsR (mm h (catC p q)) = mm h q := by
  funext j
  show ∑ l : Fin 512, h (ix2 (j 0) l) * catC p q (ix2 l ⟨(j 1).val + 128, _⟩) = ∑ l : Fin 512, h (ix2 (j 0) l) * q (ix2 l (j 1))
  refine Finset.sum_congr rfl fun l _ => ?_
  rw [catC_right p q l (j 1)]

theorem mm_tr (mu : A2 4096 128) : mm mu (tr mu) = gram mu := rfl

theorem head_L (adj : A2 4096 4096) (h1 : A2 4096 512) (p q : A2 512 128) :
    colsL (leaky (mm adj (mm h1 (catC p q)))) = head adj h1 p := by
  rw [colsL_leaky, colsL_mm, colsL_mm_catC]; rfl

theorem head_R (adj : A2 4096 4096) (h1 : A2 4096 512) (p q : A2 512 128) :
    colsR (leaky (mm adj (mm h1 (catC p q)))) = head adj h1 q := by
  rw [colsR_leaky, colsR_mm, colsR_mm_catC]; rfl

end Cert.Spec

end
-- ==== Proof.KI.Val0.lean ====
import proofs.«141970_g2173253451805_cont_8to1_1923_2_alg».proof.Proof.KI.Reg0Defs
import proofs.«141970_g2173253451805_cont_8to1_1923_2_alg».proof.Proof.KI.ChainLib
import proofs.«141970_g2173253451805_cont_8to1_1923_2_alg».proof.Proof.Spec
import Idealize.ShloMosaic.Lib.ValueIdx
import Idealize.ShloMosaic.Lib.Pipeline.Value
import Idealize.ShloMosaic.PureOps.Ideal.Laws
import Idealize.ShloMosaic.Lib.ValueLayout

noncomputable section

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

theorem pay0_apply (x0 : Vec Ideal S512x2000 .f32) (x1 : Vec Ideal S2000x512 .f32) (p q : Fin 512) :
    k0_pay1 (F := Ideal) x0 x1 (ix2 p q) = ∑ l : Fin 2000, x0 (ix2 p l) * x1 (ix2 l q) :=
  mm_apply dot_S512x2000_S2000x512_S512x512_1_0_0_1_n_n rfl rfl rfl rfl (fun _ _ => rfl) (fun _ _ => rfl) x0 x1 p q

theorem idx_facts0 : ∀ t : Fin cfg0.N, (win0_0.index t 0 = t.val ∧ win0_0.index t 1 = 0)
    ∧ (∀ a : Fin 2, win0_1.index t a = 0) ∧ (win0_2.index t 0 = t.val ∧ win0_2.index t 1 = 0) :=
  (by decide +kernel : ∀ t : Fin grid0.N, _)

variable (V : (c : Dev nD) → (b : Ref sig .tc) → Buf (Elt Ideal) ((c : Thread nD τ).loc b))

-- the first window's block at point t is rows 512 t … 512 t + 511 of its array
theorem iblk0_0_apply (c : Dev nD) (t : Fin cfg0.N) (p : Fin 512) (r : Fin 4096) (l : Fin 2000) (hr : r.val = t.val * 512 + p.val) :
    (Hand.iblk0 V c 0 t : Vec Ideal S512x2000 .f32) (ix2 p l) = (V c main_arg0 : S4096x2000.Idx → EReal) (ix2 r l) :=
  congrArg (V c main_arg0 : S4096x2000.Idx → EReal) (Shape.idx_ext₂
    ((win0_0.rect_emb_val t _ 0).trans ((congrArg (· * 512 + p.val) (idx_facts0 t).1.1).trans hr.symm))
    (win0_0.rect_emb_val_of_index_zero t 1 (idx_facts0 t).1.2 _))

-- the second window's block is its whole array
theorem iblk0_1_eq (c : Dev nD) (t : Fin cfg0.N) : (Hand.iblk0 V c 1 t : Vec Ideal S2000x512 .f32) = V c main_arg2 :=
  funext fun j => congrArg (V c main_arg2 : S2000x512.Idx → EReal)
    (funext fun a => Fin.ext (win0_1.rect_emb_val_of_index_zero t a ((idx_facts0 t).2.1 a) j))

theorem arr0_2 (c : Dev nD) :
    ((Hand.dat0 (F := Ideal) V c).arrAt 2 cfg0.N : Spec.A2 4096 512) = Spec.mm (V c main_arg0) (V c main_arg2) :=
  (Hand.dat0 V c).arrAt_eq_of_cover 2 _ (fun t _ => by
    show (cfg0.win 2).cut (grid0.coords t) ((Hand.dat0 V c).after 2 t) = _
    rw [Hand.after0_2, iblk0_1_eq]
    unfold Hand.out0_2
    simp only [canon_whole, View.ld_unit_zero (S := S512x2000) hz, View.ld_unit_zero (S := S2000x512) hz]
    exact funext fun j => rows_ext _ (Spec.mm (V c main_arg0) (V c main_arg2)) t.val
      (fun p r q hr => (pay0_apply _ _ p q).trans (Finset.sum_congr rfl fun l _ => by rw [iblk0_0_apply V c t p r l hr])) _ _
      ((win0_2.rect_emb_val t j 0).trans (congrArg (· * 512 + (j 0).val) (idx_facts0 t).2.2.1))
      (win0_2.rect_emb_val_of_index_zero t 1 (idx_facts0 t).2.2.2 j)) fun i => by
    obtain ⟨t, ht⟩ := rows_cover (R := 512) (n := 512) (by decide) (by rw [N_0]) i win0_2.index fun t => (idx_facts0 t).2.2
    refine ⟨t, flush0_2 t, ?_⟩
    show i ∈ ((View.whole main_v8).slice (win0_2.rect t)).set
    rw [View.set_slice_whole, Rect.mem_set_unit]
    exact ht

end Cert.KernelIdeal.Val

end
-- ==== Proof.KI.Val1.lean ====
import proofs.«141970_g2173253451805_cont_8to1_1923_2_alg».proof.Proof.KI.Reg1Defs
import proofs.«141970_g2173253451805_cont_8to1_1923_2_alg».proof.Proof.KI.ChainLib
import proofs.«141970_g2173253451805_cont_8to1_1923_2_alg».proof.Proof.Spec
import Idealize.ShloMosaic.Lib.ValueIdx
import Idealize.ShloMosaic.Lib.Pipeline.Value
import Idealize.ShloMosaic.PureOps.Ideal.Laws
import Idealize.ShloMosaic.Lib.ValueLayout
import Idealize.ShloMosaic.Lib.Tactic

noncomputable section

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

-- the body's compare-and-select against zero, with slope 0.01 on the other branch, is the leaky rectifier
theorem leaky_at1 (M : FVec Ideal S512x512 .f32) (i : S512x512.Idx) (v : EReal) (h : M i = v) :
    select (cmpf .ogt M (broadcast S512x512 (Scalar.ofBits (F := Ideal) .f32 0x00000000#32))) M
        (mulf (broadcast S512x512 (Scalar.ofBits (F := Ideal) .f32 0x3C23D70A#32)) M) i = Spec.leaky1 v := by
  subst h; rfl

theorem pay1_apply (x0 : Vec Ideal S512x4096 .f32) (x1 : Vec Ideal S4096x512 .f32) (x2 : Vec Ideal S512x256 .f32)
    (p : Fin 512) (q : Fin 256) :
    k1_pay1 x0 x1 x2 (ix2 p q)
      = ∑ l : Fin 512, Spec.leaky1 (∑ k : Fin 4096, x0 (ix2 p k) * x1 (ix2 k l)) * x2 (ix2 l q) := by
  unfold k1_pay1
  simp only [shapeCast_self]
  refine (mm_apply dot_S512x512_S512x256_S512x256_1_0_0_1_n_n rfl rfl rfl rfl (fun _ _ => rfl) (fun _ _ => rfl) _ x2 p q).trans ?_
  refine Finset.sum_congr rfl fun l _ => congrArg (· * x2 (ix2 l q)) ?_
  exact leaky_at1 _ (ix2 p l) _
    (mm_apply dot_S512x4096_S4096x512_S512x512_1_0_0_1_n_n rfl rfl rfl rfl (fun _ _ => rfl) (fun _ _ => rfl) x0 x1 p l)

theorem idx_facts1 : ∀ t : Fin cfg1.N, (win1_0.index t 0 = t.val ∧ win1_0.index t 1 = 0)
    ∧ (∀ a : Fin 2, win1_1.index t a = 0 ∧ win1_2.index t a = 0) ∧ (win1_3.index t 0 = t.val ∧ win1_3.index t 1 = 0) :=
  (by decide +kernel : ∀ t : Fin grid1.N, _)

variable (V : (c : Dev nD) → (b : Ref sig .tc) → Buf (Elt Ideal) ((c : Thread nD τ).loc b))

-- the adjacency's block at point t is its rows 512 t … 512 t + 511
theorem iblk1_0_apply (c : Dev nD) (t : Fin cfg1.N) (p : Fin 512) (r : Fin 4096) (k : Fin 4096) (hr : r.val = t.val * 512 + p.val) :
    (Hand.iblk1 V c 0 t : Vec Ideal S512x4096 .f32) (ix2 p k) = (V c main_arg1 : Spec.A2 4096 4096) (ix2 r k) :=
  congrArg (V c main_arg1 : S4096x4096.Idx → EReal) (Shape.idx_ext₂
    ((win1_0.rect_emb_val t _ 0).trans ((congrArg (· * 512 + p.val) (idx_facts1 t).1.1).trans hr.symm))
    (win1_0.rect_emb_val_of_index_zero t 1 (idx_facts1 t).1.2 _))

-- the other two windows' blocks are their whole arrays
theorem iblk1_1_eq (c : Dev nD) (t : Fin cfg1.N) : (Hand.iblk1 V c 1 t : Vec Ideal S4096x512 .f32) = V c main_v8 :=
  funext fun j => congrArg (V c main_v8 : S4096x512.Idx → EReal)
    (funext fun a => Fin.ext (win1_1.rect_emb_val_of_index_zero t a ((idx_facts1 t).2.1 a).1 j))
theorem iblk1_2_eq (c : Dev nD) (t : Fin cfg1.N) : (Hand.iblk1 V c 2 t : Vec Ideal S512x256 .f32) = V c main_v0 :=
  funext fun j => congrArg (V c main_v0 : S512x256.Idx → EReal)
    (funext fun a => Fin.ext (win1_2.rect_emb_val_of_index_zero t a ((idx_facts1 t).2.1 a).2 j))

theorem pay1_rows (A : Spec.A2 4096 4096) (X : Spec.A2 4096 512) (W : Spec.A2 512 256) (x0 : Vec Ideal S512x4096 .f32)
    (p : Fin 512) (r : Fin 4096) (q : Fin 256) (h0 : ∀ k : Fin 4096, x0 (ix2 p k) = A (ix2 r k)) :
    k1_pay1 x0 X W (ix2 p q) = Spec.mm (Spec.leaky (Spec.mm A X)) W (ix2 r q) := by
  rw [pay1_apply]
  show _ = ∑ l : Fin 512, Spec.leaky1 (∑ k : Fin 4096, A (ix2 r k) * X (ix2 k l)) * W (ix2 l q)
  exact Finset.sum_congr rfl fun l _ => congrArg (fun v => Spec.leaky1 v * W (ix2 l q))
    (Finset.sum_congr rfl fun k _ => by rw [h0 k])

theorem flushed1_3_eq (c : Dev nD) (t : Fin cfg1.N) :
    (Hand.dat1 (F := Ideal) V c).flushed 3 t = ((cfg1.win 3).blk t).view.read (Elt Ideal)
      (Spec.mm (Spec.leaky (Spec.mm (V c main_arg1) (V c main_v8))) (V c main_v0)) := by
  show (cfg1.win 3).cut (grid1.coords t) ((Hand.dat1 (F := Ideal) V c).after 3 t) = _
  rw [Hand.after1_3, iblk1_1_eq, iblk1_2_eq]
  unfold Hand.out1_3
  simp only [canon_whole, View.ld_unit_zero (S := S512x4096) hz, View.ld_unit_zero (S := S4096x512) hz,
    View.ld_unit_zero (S := S512x256) hz]
  funext j
  rw [View.read_apply]
  exact rows_ext (R := 512) (M := 4096) (n := 256) _ _ t.val (fun p r q hr => pay1_rows (V c main_arg1) (V c main_v8) (V c main_v0) _ p r q
      fun k => iblk1_0_apply V c t p r k hr) _ _
    ((win1_3.rect_emb_val t j 0).trans (congrArg (· * 512 + (j 0).val) (idx_facts1 t).2.2.1))
    (win1_3.rect_emb_val_of_index_zero t 1 (idx_facts1 t).2.2.2 j)

theorem cover1 (i : S4096x256.Idx) : ∃ t : Fin cfg1.N, (cfg1.win 3).flush t = true ∧ i ∈ ((cfg1.win 3).blk t).view.set := by
  obtain ⟨t, ht⟩ := rows_cover (R := 512) (n := 256) (by decide) (by rw [N_1]) i win1_3.index fun t => (idx_facts1 t).2.2
  refine ⟨t, flush1_3 t, ?_⟩
  show i ∈ ((View.whole main_v9).slice (win1_3.rect t)).set
  rw [View.set_slice_whole, Rect.mem_set_unit]
  exact ht

theorem arr1_3 (c : Dev nD) :
    ((Hand.dat1 (F := Ideal) V c).arrAt 3 cfg1.N : Spec.A2 4096 256)
      = Spec.mm (Spec.leaky (Spec.mm (V c main_arg1) (V c main_v8))) (V c main_v0) :=
  (Hand.dat1 (F := Ideal) V c).arrAt_eq_of_cover 3 _ (fun t _ => flushed1_3_eq V c t) cover1

end Cert.KernelIdeal.Val

end
-- ==== Proof.KI.Val2Pay.lean ====
import proofs.«141970_g2173253451805_cont_8to1_1923_2_alg».proof.Proof.Gen.KernelIdeal.Skeleton
import proofs.«141970_g2173253451805_cont_8to1_1923_2_alg».proof.Proof.KI.ChainLib
import proofs.«141970_g2173253451805_cont_8to1_1923_2_alg».proof.Proof.Spec
import Idealize.ShloMosaic.Lib.ValueIdx
import Idealize.ShloMosaic.Lib.Pipeline.Value
import Idealize.ShloMosaic.PureOps.Ideal.Laws
import Idealize.ShloMosaic.Lib.ValueLayout

noncomputable section

namespace Cert.KernelIdeal.Val

open Idealize.ShloMosaic Idealize.SL.Sem Idealize.ShloMosaic.ValueIdx
open Cert.KernelIdeal Cert.KernelIdeal.Gen

theorem k2_pay1_apply (x0 : Vec Ideal S512x4096 .f32) (x1 : Vec Ideal S4096x256 .f32) (p : Fin 512) (q : Fin 256) :
    k2_pay1 x0 x1 (ix2 p q) = Spec.leaky1 (∑ l : Fin 4096, x0 (ix2 p l) * x1 (ix2 l q)) := by
  unfold k2_pay1
  rw [shapeCast_self]
  refine Eq.trans ?_ (congrArg Spec.leaky1 (mm_apply dot_S512x4096_S4096x256_S512x256_1_0_0_1_n_n rfl rfl rfl rfl (fun _ _ => rfl) (fun _ _ => rfl) x0 x1 p q))
  rfl

theorem k2_pay2_apply (x0 : Vec Ideal S512x4096 .f32) (x1 : Vec Ideal S4096x256 .f32) (x2 : Vec Ideal S128x512 .f32)
    (x3 : Vec Ideal S1x512 .f32) (p : Fin 512) (q : Fin 512) :
    k2_pay2 x0 x1 x2 x3 (ix2 p q)
      = (∑ l : Fin 128, k2_pay1 x0 x1 (ix2 p ⟨l.val, by have := l.isLt; omega⟩) * x2 (ix2 l q)) + x3 (ix2 (0 : Fin 1) q) := by
  unfold k2_pay2
  refine (addf_apply _ _ _).trans ?_
  refine congrArg₂ (· + ·) ?_ ?_
  · refine (mm_apply dot_S512x128_S128x512_S512x512_1_0_0_1_n_n rfl rfl rfl rfl (fun _ _ => rfl) (fun _ _ => rfl) _ x2 p q).trans (Finset.sum_congr rfl fun l _ => congrArg (· * x2 (ix2 l q)) ?_)
    exact slice2_axis1_apply 0 (k2_pay1 x0 x1) slices_S512x256_o0_0_S512x128 p l _ (by simp)
  · rw [broadcastTo_1b_ab_apply, shapeCast_self]

theorem k2_colsum_apply (src : FVec Ideal S512x512 .f32) (q : Fin 512) :
    multiReduction (F := Ideal) .add [0] S512 src 0x00000000#32 reduces_S512x512_S512 (.inl rfl) rfl (ix1 q)
      = ∑ p : Fin 512, src (ix2 p q) := by
  refine (Ideal.multiReduction_add_single src 0x00000000#32 reduces_S512x512_S512 (.inl rfl) rfl (ix1 q)).trans ?_
  refine Finset.sum_congr rfl fun p _ => congrArg src (funext fun c => Fin.ext ?_)
  match c with
  | ⟨0, _⟩ => rfl
  | ⟨1, _⟩ => rfl

theorem k2_cat3_row0 (a b : FVec Ideal S1x512 .f32) (z : FVec Ideal S6x512 .f32) (q : Fin 512) :
    concatenate S8x512 0 [⟨S1x512, a⟩, ⟨S1x512, b⟩, ⟨S6x512, z⟩] concatenates_S1x512_S1x512_S6x512_S8x512_d0 (ix2 (0 : Fin 8) q)
      = a (ix2 (0 : Fin 1) q) :=
  concatenate_apply_piece (0 : Fin S8x512.rank) [⟨S1x512, a⟩, ⟨S1x512, b⟩, ⟨S6x512, z⟩] concatenates_S1x512_S1x512_S6x512_S8x512_d0
    (ix2 (0 : Fin 8) q) 0 (by simp) S1x512 a rfl rfl 0 rfl (ix2 (0 : Fin 1) q)
    (fun b hb => by
      match b with
      | ⟨0, _⟩ => exact absurd rfl hb
      | ⟨1, _⟩ => rfl) rfl

theorem k2_cat3_row1 (a b : FVec Ideal S1x512 .f32) (z : FVec Ideal S6x512 .f32) (q : Fin 512) :
    concatenate S8x512 0 [⟨S1x512, a⟩, ⟨S1x512, b⟩, ⟨S6x512, z⟩] concatenates_S1x512_S1x512_S6x512_S8x512_d0 (ix2 (1 : Fin 8) q)
      = b (ix2 (0 : Fin 1) q) :=
  concatenate_apply_piece (0 : Fin S8x512.rank) [⟨S1x512, a⟩, ⟨S1x512, b⟩, ⟨S6x512, z⟩] concatenates_S1x512_S1x512_S6x512_S8x512_d0
    (ix2 (1 : Fin 8) q) 1 (by simp) S1x512 b rfl rfl 1 rfl (ix2 (0 : Fin 1) q)
    (fun b hb => by
      match b with
      | ⟨0, _⟩ => exact absurd rfl hb
      | ⟨1, _⟩ => rfl) rfl

theorem k2_pay3_row0 (x0 : Vec Ideal S512x4096 .f32) (x1 : Vec Ideal S4096x256 .f32) (x2 : Vec Ideal S128x512 .f32)
    (x3 : Vec Ideal S1x512 .f32) (q : Fin 512) :
    k2_pay3 x0 x1 x2 x3 (ix2 (0 : Fin 8) q) = ∑ p : Fin 512, k2_pay2 x0 x1 x2 x3 (ix2 p q) := by
  unfold k2_pay3
  refine (k2_cat3_row0 _ _ _ q).trans ?_
  refine (shapeCast_a_1a_apply _ shapeCasts_S512_S1x512 (0 : Fin 1) q).trans ?_
  exact k2_colsum_apply _ q

theorem k2_pay3_row1 (x0 : Vec Ideal S512x4096 .f32) (x1 : Vec Ideal S4096x256 .f32) (x2 : Vec Ideal S128x512 .f32)
    (x3 : Vec Ideal S1x512 .f32) (q : Fin 512) :
    k2_pay3 x0 x1 x2 x3 (ix2 (1 : Fin 8) q)
      = ∑ p : Fin 512, k2_pay2 x0 x1 x2 x3 (ix2 p q) * k2_pay2 x0 x1 x2 x3 (ix2 p q) := by
  unfold k2_pay3
  refine (k2_cat3_row1 _ _ _ q).trans ?_
  refine (shapeCast_a_1a_apply _ shapeCasts_S512_S1x512 (0 : Fin 1) q).trans ?_
  exact k2_colsum_apply _ q

theorem k2_pay4_apply (x0 : Vec Ideal S512x4096 .f32) (x1 : Vec Ideal S4096x256 .f32) (x2 : Vec Ideal S128x512 .f32)
    (x3 : Vec Ideal S1x512 .f32) (xo : Vec Ideal S8x512 .f32) (r : Fin 8) (q : Fin 512) :
    k2_pay4 x0 x1 x2 x3 xo (ix2 r q) = xo (ix2 r q) + k2_pay3 x0 x1 x2 x3 (ix2 r q) := by
  unfold k2_pay4
  rw [shapeCast_self]
  rfl

end Cert.KernelIdeal.Val

end
-- ==== Proof.KI.Val2Blk.lean ====
import proofs.«141970_g2173253451805_cont_8to1_1923_2_alg».proof.Proof.KI.Reg2Defs
import proofs.«141970_g2173253451805_cont_8to1_1923_2_alg».proof.Proof.KI.Val2Pay
import proofs.«141970_g2173253451805_cont_8to1_1923_2_alg».proof.Proof.Spec
import Idealize.ShloMosaic.Lib.ValueIdx
import Idealize.ShloMosaic.Lib.Pipeline.Value
import Idealize.ShloMosaic.PureOps.Ideal.Laws
import Idealize.ShloMosaic.Lib.ValueLayout

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

-- every access is through the whole rectangle, so each output is its payload
theorem out2_4_eq (x0 : Vec Ideal S512x4096 .f32) (x1 : Vec Ideal S4096x256 .f32) : out2_4 x0 x1 = k2_pay1 x0 x1 := by
  unfold out2_4
  simp only [canon_whole, ld_whole]
theorem out2_5_eq (x0 : Vec Ideal S512x4096 .f32) (x1 : Vec Ideal S4096x256 .f32) (x2 : Vec Ideal S128x512 .f32)
    (x3 : Vec Ideal S1x512 .f32) : out2_5 x0 x1 x2 x3 = k2_pay2 x0 x1 x2 x3 := by
  unfold out2_5
  simp only [canon_whole, ld_whole]
theorem upd2_eq (x0 : Vec Ideal S512x4096 .f32) (x1 : Vec Ideal S4096x256 .f32) (x2 : Vec Ideal S128x512 .f32)
    (x3 : Vec Ideal S1x512 .f32) : upd2 x0 x1 x2 x3 = k2_pay3 x0 x1 x2 x3 := by
  unfold upd2
  simp only [canon_whole, ld_whole]
theorem acc2_eq (x0 : Vec Ideal S512x4096 .f32) (x1 : Vec Ideal S4096x256 .f32) (x2 : Vec Ideal S128x512 .f32)
    (x3 : Vec Ideal S1x512 .f32) (xo : Vec Ideal S8x512 .f32) : acc2 x0 x1 x2 x3 xo = k2_pay4 x0 x1 x2 x3 xo := by
  unfold acc2
  simp only [canon_whole, ld_whole]

abbrev adjA2 (c : Dev nD) : Spec.A2 4096 4096 := V c main_arg1
abbrev tA2 (c : Dev nD) : Spec.A2 4096 256 := V c main_v9
abbrev fwA2 (c : Dev nD) : Spec.A2 128 512 := V c main_arg5
abbrev fbA2 (c : Dev nD) : Spec.A2 1 512 := V c main_v1
abbrev ML2 (c : Dev nD) : Spec.A2 4096 256 := Spec.leaky (Spec.mm (adjA2 V c) (tA2 V c))
abbrev HH2 (c : Dev nD) : Spec.A2 4096 512 :=
  Spec.dense (Spec.colsL (ML2 V c)) (fwA2 V c) (fun j => fbA2 V c (ix2 (0 : Fin 1) j))

theorem idx2 : ∀ t : Fin cfg2.N, (∀ a : Fin 2, win2_1.index t a = 0 ∧ win2_2.index t a = 0 ∧ win2_3.index t a = 0)
    ∧ (win2_0.index t 0 = t.val ∧ win2_0.index t 1 = 0) ∧ (win2_4.index t 0 = t.val ∧ win2_4.index t 1 = 0)
    ∧ (win2_5.index t 0 = t.val ∧ win2_5.index t 1 = 0) :=
  (by decide +kernel : ∀ t : Fin grid2.N, _)

-- the adjacency's block at point t is its rows 512 t … 512 t + 511
theorem blk2_0_apply (c : Dev nD) (t : Fin cfg2.N) (p : Fin 512) (l : Fin 4096) (r : Fin 4096) (hr : r.val = 512 * t.val + p.val) :
    (iblk2 V c 0 t : Vec Ideal S512x4096 .f32) (ix2 p l) = adjA2 V c (ix2 r l) :=
  congrArg (V c main_arg1 : S4096x4096.Idx → EReal) (Shape.idx_ext₂
    ((win2_0.rect_emb_val t _ 0).trans ((congrArg (· * 512 + p.val) (idx2 t).2.1.1).trans (by show t.val * 512 + p.val = r.val; omega)))
    (win2_0.rect_emb_val_of_index_zero t 1 (idx2 t).2.1.2 _))

-- the other three windows' blocks are their whole arrays
theorem blk2_1_eq (c : Dev nD) (t : Fin cfg2.N) : (iblk2 V c 1 t : Vec Ideal S4096x256 .f32) = tA2 V c :=
  funext fun j => congrArg (V c main_v9 : S4096x256.Idx → EReal)
    (funext fun a => Fin.ext (win2_1.rect_emb_val_of_index_zero t a ((idx2 t).1 a).1 j))
theorem blk2_2_eq (c : Dev nD) (t : Fin cfg2.N) : (iblk2 V c 2 t : Vec Ideal S128x512 .f32) = fwA2 V c :=
  funext fun j => congrArg (V c main_arg5 : S128x512.Idx → EReal)
    (funext fun a => Fin.ext (win2_2.rect_emb_val_of_index_zero t a ((idx2 t).1 a).2.1 j))
theorem blk2_3_eq (c : Dev nD) (t : Fin cfg2.N) : (iblk2 V c 3 t : Vec Ideal S1x512 .f32) = fbA2 V c :=
  funext fun j => congrArg (V c main_v1 : S1x512.Idx → EReal)
    (funext fun a => Fin.ext (win2_3.rect_emb_val_of_index_zero t a ((idx2 t).1 a).2.2 j))

theorem ml2_block (c : Dev nD) (t : Fin cfg2.N) (p : Fin 512) (q : Fin 256) (r : Fin 4096) (hr : r.val = 512 * t.val + p.val) :
    k2_pay1 (iblk2 V c 0 t) (iblk2 V c 1 t) (ix2 p q) = ML2 V c (ix2 r q) := by
  rw [k2_pay1_apply, blk2_1_eq]
  exact congrArg Spec.leaky1 (Finset.sum_congr rfl fun l _ => by rw [blk2_0_apply V c t p l r hr])

theorem dense2_block (c : Dev nD) (t : Fin cfg2.N) (p q : Fin 512) (r : Fin 4096) (hr : r.val = 512 * t.val + p.val) :
    k2_pay2 (iblk2 V c 0 t) (iblk2 V c 1 t) (iblk2 V c 2 t) (iblk2 V c 3 t) (ix2 p q) = HH2 V c (ix2 r q) := by
  rw [k2_pay2_apply, blk2_2_eq, blk2_3_eq]
  exact congrArg (· + fbA2 V c (ix2 (0 : Fin 1) q))
    (Finset.sum_congr rfl fun l _ => congrArg (· * fwA2 V c (ix2 l q)) (ml2_block V c t p _ r hr))

end Cert.KernelIdeal.Val

end
-- ==== Proof.KI.Val2.lean ====
import proofs.«141970_g2173253451805_cont_8to1_1923_2_alg».proof.Proof.KI.Val2Blk

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

theorem arr2_4 (c : Dev nD) : ((dat2 (F := Ideal) V c).arrAt 4 cfg2.N : Spec.A2 4096 256) = ML2 V c :=
  (dat2 V c).arrAt_eq_of_cover 4 (ML2 V c) (fun t _ => by
    show (cfg2.win 4).cut (grid2.coords t) ((dat2 V c).after 4 t) = _
    rw [after2_4, out2_4_eq]
    exact funext fun j => rows_ext _ (ML2 V c) t.val (fun p r q hr => ml2_block V c t p q r (by omega)) _ _
      ((win2_4.rect_emb_val t j 0).trans (congrArg (· * 512 + (j 0).val) (idx2 t).2.2.1.1))
      (win2_4.rect_emb_val_of_index_zero t 1 (idx2 t).2.2.1.2 j)) fun i => by
    obtain ⟨t, ht⟩ := rows_cover (R := 512) (n := 256) (by decide) (by rw [N_2]) i win2_4.index fun t => (idx2 t).2.2.1
    refine ⟨t, flush2_4 t, ?_⟩
    show i ∈ ((View.whole main_v10_0).slice (win2_4.rect t)).set
    rw [View.set_slice_whole, Rect.mem_set_unit]
    exact ht

theorem arr2_5 (c : Dev nD) : ((dat2 (F := Ideal) V c).arrAt 5 cfg2.N : Spec.A2 4096 512) = HH2 V c :=
  (dat2 V c).arrAt_eq_of_cover 5 (HH2 V c) (fun t _ => by
    show (cfg2.win 5).cut (grid2.coords t) ((dat2 V c).after 5 t) = _
    rw [after2_5, out2_5_eq]
    exact funext fun j => rows_ext _ (HH2 V c) t.val (fun p r q hr => dense2_block V c t p q r (by omega)) _ _
      ((win2_5.rect_emb_val t j 0).trans (congrArg (· * 512 + (j 0).val) (idx2 t).2.2.2.1))
      (win2_5.rect_emb_val_of_index_zero t 1 (idx2 t).2.2.2.2 j)) fun i => by
    obtain ⟨t, ht⟩ := rows_cover (R := 512) (n := 512) (by decide) (by rw [N_2]) i win2_5.index fun t => (idx2 t).2.2.2
    refine ⟨t, flush2_5 t, ?_⟩
    show i ∈ ((View.whole main_v10_1).slice (win2_5.rect t)).set
    rw [View.set_slice_whole, Rect.mem_set_unit]
    exact ht

end Cert.KernelIdeal.Val

end
-- ==== Proof.KI.Val2Stats.lean ====
import proofs.«141970_g2173253451805_cont_8to1_1923_2_alg».proof.Proof.KI.Val2Blk
import Idealize.ShloMosaic.Lib.ValueIdx
import Idealize.ShloMosaic.Lib.Pipeline.Value

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

-- column j of the dense layer's array through g, as a function of the row number (zero past the last row)
def colG2 (g : EReal → EReal) (c : Dev nD) (j : Fin 512) (k : ℕ) : EReal :=
  if h : k < 4096 then g (HH2 V c (ix2 ⟨k, h⟩ j)) else 0

theorem blockG2 (g : EReal → EReal) (c : Dev nD) (j : Fin 512) (t : Fin cfg2.N) :
    ∑ p : Fin 512, g (k2_pay2 (iblk2 V c 0 t) (iblk2 V c 1 t) (iblk2 V c 2 t) (iblk2 V c 3 t) (ix2 p j))
      = ∑ p ∈ Finset.range 512, colG2 V g c j (512 * t.val + p) := by
  have hN : t.val < 8 := lt_of_lt_of_eq t.isLt (show cfg2.N = 8 from N_2)
  rw [Finset.sum_range]
  refine Finset.sum_congr rfl fun p _ => ?_
  have hlt : 512 * t.val + p.val < 4096 := by have := p.isLt; omega
  unfold colG2
  rw [dif_pos hlt, dense2_block V c t p j ⟨512 * t.val + p.val, hlt⟩ rfl]

-- a row of the statistics to which every point adds its block's column sums of g holds the sums over the rows so far
theorem stats2_row (g : EReal → EReal) (ρ : Fin 8)
    (hρ : ∀ (x0 : Vec Ideal S512x4096 .f32) (x1 : Vec Ideal S4096x256 .f32) (x2 : Vec Ideal S128x512 .f32) (x3 : Vec Ideal S1x512 .f32)
      (q : Fin 512), k2_pay3 x0 x1 x2 x3 (ix2 ρ q) = ∑ p : Fin 512, g (k2_pay2 x0 x1 x2 x3 (ix2 p q)))
    (c : Dev nD) (j : Fin 512) : ∀ (n : ℕ) (hn : n < cfg2.N),
    statsAt2 V c n hn (ix2 ρ j) = ∑ k ∈ Finset.range (512 * (n + 1)), colG2 V g c j k
  | 0, hn => by
    rw [statsAt2_zero, upd2_eq, hρ, blockG2 V g c j ⟨0, hn⟩]
    refine Finset.sum_congr rfl fun p _ => ?_
    show colG2 V g c j (512 * 0 + p) = colG2 V g c j p
    rw [Nat.mul_zero, Nat.zero_add]
  | n + 1, hn => by
    rw [statsAt2_succ, acc2_eq, k2_pay4_apply, hρ, stats2_row g ρ hρ c j n (Nat.lt_of_succ_lt hn), blockG2 V g c j ⟨n + 1, hn⟩,
      show 512 * (n + 1 + 1) = 512 * (n + 1) + 512 from by omega, Finset.sum_range_add]

abbrev statsLast2 (c : Dev nD) : Buf (Elt Ideal) ((c : Thread nD τ).loc main_v10_2) :=
  statsAt2 V c 7 (by rw [show cfg2.N = 8 from N_2]; decide)

theorem stats2_flushed (c : Dev nD) (t : Fin cfg2.N) (hf : (cfg2.win 6).flush t = true) :
    (dat2 V c).flushed 6 t = ((cfg2.win 6).blk t).view.read (Elt Ideal) (statsLast2 V c) := by
  have hN : cfg2.N = 8 := N_2
  have h7 : t.val = 7 := by have := (flush2_6 t).mp hf; have := t.isLt; omega
  obtain rfl : t = t2_7 := Fin.ext h7
  show (cfg2.win 6).cut (grid2.coords t2_7) ((dat2 V c).after 6 t2_7) = _
  rw [after2_6]
  have hz' : (fun a => win2_6.index t2_7 a * main_v10_2.ty.shape.size a) = fun _ => 0 :=
    funext fun a => by fin_cases a <;> decide
  exact (Memref.read_access_unit_zero (Elt Ideal) main_v10_2 hz' (fun a => by rw [congrFun hz' a]; simp) (statsLast2 V c)).symm

theorem stats2_mem (i : S8x512.Idx) : i ∈ ((cfg2.win 6).blk t2_7).view.set := by
  show i ∈ ((View.whole main_v10_2).slice (win2_6.rect t2_7)).set
  rw [View.set_slice_whole, Rect.mem_set_unit]
  intro a
  have h0 : (i 0).val < 8 := (i 0).isLt
  have h1 : (i 1).val < 512 := (i 1).isLt
  match a with
  | ⟨0, _⟩ =>
    show win2_6.index t2_7 0 * win2_6.size 0 ≤ (i 0).val ∧ (i 0).val < win2_6.index t2_7 0 * win2_6.size 0 + win2_6.xsize (grid2.coords t2_7) 0
    rw [show win2_6.index t2_7 0 * win2_6.size 0 = 0 from by decide +kernel, show win2_6.xsize (grid2.coords t2_7) 0 = 8 from by decide +kernel]
    omega
  | ⟨1, _⟩ =>
    show win2_6.index t2_7 1 * win2_6.size 1 ≤ (i 1).val ∧ (i 1).val < win2_6.index t2_7 1 * win2_6.size 1 + win2_6.xsize (grid2.coords t2_7) 1
    rw [show win2_6.index t2_7 1 * win2_6.size 1 = 0 from by decide +kernel, show win2_6.xsize (grid2.coords t2_7) 1 = 512 from by decide +kernel]
    omega

theorem arr2_6 (c : Dev nD) : (dat2 V c).arrAt 6 cfg2.N = statsLast2 V c :=
  (dat2 V c).arrAt_eq_of_cover 6 (statsLast2 V c) (stats2_flushed V c) fun i =>
    ⟨t2_7, (flush2_6 t2_7).mpr rfl, stats2_mem i⟩

theorem arr2_6_sum (c : Dev nD) (j : Fin 512) :
    ((Hand.dat2 (F := Ideal) V c).arrAt 6 cfg2.N : Spec.A2 8 512) (ix2 0 j) = Spec.csum (HH2 V c) j := by
  rw [arr2_6]
  refine (stats2_row V (fun x => x) 0 k2_pay3_row0 c j 7 _).trans ?_
  unfold Spec.csum
  rw [show 512 * (7 + 1) = 4096 from rfl, Finset.sum_range]
  refine Finset.sum_congr rfl fun i _ => ?_
  unfold colG2
  rw [dif_pos i.isLt]

theorem arr2_6_sq (c : Dev nD) (j : Fin 512) :
    ((Hand.dat2 (F := Ideal) V c).arrAt 6 cfg2.N : Spec.A2 8 512) (ix2 1 j) = Spec.csumsq (HH2 V c) j := by
  rw [arr2_6]
  refine (stats2_row V (fun x => x * x) 1 k2_pay3_row1 c j 7 _).trans ?_
  unfold Spec.csumsq
  rw [show 512 * (7 + 1) = 4096 from rfl, Finset.sum_range]
  refine Finset.sum_congr rfl fun i _ => ?_
  unfold colG2
  rw [dif_pos i.isLt]

end Cert.KernelIdeal.Val

end
-- ==== Proof.KI.Val3.lean ====
import proofs.«141970_g2173253451805_cont_8to1_1923_2_alg».proof.Proof.KI.Reg3Defs
import proofs.«141970_g2173253451805_cont_8to1_1923_2_alg».proof.Proof.KI.ChainLib
import proofs.«141970_g2173253451805_cont_8to1_1923_2_alg».proof.Proof.Spec
import Idealize.ShloMosaic.Lib.ValueIdx
import Idealize.ShloMosaic.Lib.Pipeline.Value
import Idealize.ShloMosaic.PureOps.Ideal.Laws
import Idealize.ShloMosaic.Lib.Tactic

noncomputable section

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

theorem pay3_apply (x0 : Vec Ideal S1024x128 .f32) (x1 : Vec Ideal S128x2048 .f32) (p : Fin 1024) (q : Fin 2048) :
    k3_pay1 x0 x1 (ix2 p q) = ∑ l : Fin 128, x0 (ix2 p l) * x1 (ix2 l q) := by
  unfold k3_pay1
  simp only [shapeCast_self]
  exact mm_apply dot_S1024x128_S128x2048_S1024x2048_1_0_0_1_n_n rfl rfl rfl rfl (fun _ _ => rfl) (fun _ _ => rfl) x0 x1 p q

theorem idx_facts3 : ∀ t : Fin cfg3.N,
    win3_0.index t (0 : Fin 2) = t.val / 2 ∧ win3_0.index t (1 : Fin 2) = 0
    ∧ win3_1.index t (0 : Fin 2) = 0 ∧ win3_1.index t (1 : Fin 2) = t.val % 2
    ∧ win3_2.index t (0 : Fin 2) = t.val / 2 ∧ win3_2.index t (1 : Fin 2) = t.val % 2 :=
  (by decide +kernel : ∀ t : Fin grid3.N, _)

variable (V : (c : Dev nD) → (b : Ref sig .tc) → Buf (Elt Ideal) ((c : Thread nD τ).loc b))
-- the left factor's block at point t is rows 1024 (t / 2) … of its array; the right factor's is columns 2048 (t % 2) … of its

theorem iblk3_0_apply (c : Dev nD) (t : Fin cfg3.N) (x : S1024x128.Idx) (k : S4096x128.Idx)
    (hk0 : (k 0).val = 1024 * (t.val / 2) + (x 0).val) (hk1 : (k 1).val = (x 1).val) :
    (Hand.iblk3 V c 0 t : Vec Ideal S1024x128 .f32) x = (V c main_v11 : S4096x128.Idx → EReal) k :=
  congrArg (V c main_v11 : S4096x128.Idx → EReal) (Shape.idx_ext₂
    ((win3_0.rect_emb_val t x 0).trans ((congrArg (· * 1024 + (x 0).val) (idx_facts3 t).1).trans (by omega)))
    ((win3_0.rect_emb_val_of_index_zero t 1 (idx_facts3 t).2.1 x).trans hk1.symm))

theorem iblk3_1_apply (c : Dev nD) (t : Fin cfg3.N) (x : S128x2048.Idx) (k : S128x4096.Idx)
    (hk0 : (k 0).val = (x 0).val) (hk1 : (k 1).val = 2048 * (t.val % 2) + (x 1).val) :
    (Hand.iblk3 V c 1 t : Vec Ideal S128x2048 .f32) x = (V c main_v13 : S128x4096.Idx → EReal) k :=
  congrArg (V c main_v13 : S128x4096.Idx → EReal) (Shape.idx_ext₂
    ((win3_1.rect_emb_val_of_index_zero t 0 (idx_facts3 t).2.2.1 x).trans hk0.symm)
    ((win3_1.rect_emb_val t x 1).trans ((congrArg (· * 2048 + (x 1).val) (idx_facts3 t).2.2.2.1).trans (by omega))))

theorem flushed3_2_eq (c : Dev nD) (t : Fin cfg3.N) :
    (Hand.dat3 (F := Ideal) V c).flushed 2 t
      = ((cfg3.win 2).blk t).view.read (Elt Ideal) (Spec.mm (V c main_v11) (V c main_v13)) := by
  show (cfg3.win 2).cut (grid3.coords t) ((Hand.dat3 V c).after 2 t) = _
  rw [Hand.after3_2]
  unfold Hand.out3_2
  simp only [canon_whole, ld_whole]
  obtain ⟨-, -, -, -, e4, e5⟩ := idx_facts3 t
  funext j
  obtain ⟨p, q, rfl⟩ : ∃ (p : Fin 1024) (q : Fin 2048), j = ix2 p q := ⟨j 0, j 1, eq_ix2 j⟩
  refine (pay3_apply (Hand.iblk3 V c 0 t) (Hand.iblk3 V c 1 t) p q).trans ?_
  show _ = Spec.mm (V c main_v11) (V c main_v13) (((cfg3.win 2).blk t).view.emb (ix2 p q))
  unfold Spec.mm
  refine Finset.sum_congr rfl fun l _ => ?_
  have r0 : ((((cfg3.win 2).blk t).view.emb (ix2 p q)) 0).val = win3_2.index t 0 * 1024 + 1 * p.val := rfl
  have r1 : ((((cfg3.win 2).blk t).view.emb (ix2 p q)) 1).val = win3_2.index t 1 * 2048 + 1 * q.val := rfl
  rw [iblk3_0_apply V c t (ix2 p l) (ix2 ((((cfg3.win 2).blk t).view.emb (ix2 p q)) 0) l) (by show _ = 1024 * (t.val / 2) + p.val; rw [r0, e4]; omega) rfl,
    iblk3_1_apply V c t (ix2 l q) (ix2 l ((((cfg3.win 2).blk t).view.emb (ix2 p q)) 1)) rfl (by show _ = 2048 * (t.val % 2) + q.val; rw [r1, e5]; omega)]

-- entry (r, s) lies in the block of point 2 (r / 1024) + s / 2048
theorem covered3_2 (i : S4096x4096.Idx) :
    ∃ t : Fin cfg3.N, (cfg3.win 2).flush t = true ∧ i ∈ ((cfg3.win 2).blk t).view.set := by
  have hi0 : (i 0).val < 4096 := idx2_lt0 i
  have hi1 : (i 1).val < 4096 := idx2_lt1 i
  obtain ⟨t, ht⟩ : ∃ t : Fin cfg3.N, t.val = 2 * ((i 0).val / 1024) + (i 1).val / 2048 :=
    ⟨⟨2 * ((i 0).val / 1024) + (i 1).val / 2048, by rw [show cfg3.N = 8 from N_3]; omega⟩, rfl⟩
  obtain ⟨-, -, -, -, e4, e5⟩ := idx_facts3 t
  refine ⟨t, flush3_2 t, ?_⟩
  show i ∈ ((View.whole main_v14).slice (win3_2.rect t)).set
  rw [View.set_slice_whole, Rect.mem_set_unit]
  intro a
  match a with
  | ⟨0, _⟩ => show win3_2.index t 0 * 1024 ≤ (i 0).val ∧ (i 0).val < win3_2.index t 0 * 1024 + 1024; rw [e4, ht]; omega
  | ⟨1, _⟩ => show win3_2.index t 1 * 2048 ≤ (i 1).val ∧ (i 1).val < win3_2.index t 1 * 2048 + 2048; rw [e5, ht]; omega

theorem arr3_2 (c : Dev nD) :
    ((Hand.dat3 (F := Ideal) V c).arrAt 2 cfg3.N : Spec.A2 4096 4096) = Spec.mm (V c main_v11) (V c main_v13) :=
  (Hand.dat3 (F := Ideal) V c).arrAt_eq_of_cover 2 (Spec.mm (V c main_v11) (V c main_v13))
    (fun t _ => flushed3_2_eq V c t) covered3_2

end Cert.KernelIdeal.Val

end
-- ==== Proof.KI.Val4.lean ====
import proofs.«141970_g2173253451805_cont_8to1_1923_2_alg».proof.Proof.KI.Reg4Defs
import proofs.«141970_g2173253451805_cont_8to1_1923_2_alg».proof.Proof.KI.ChainLib
import proofs.«141970_g2173253451805_cont_8to1_1923_2_alg».proof.Proof.Spec
import Idealize.ShloMosaic.Lib.ValueIdx
import Idealize.ShloMosaic.Lib.Pipeline.Value
import Idealize.ShloMosaic.PureOps.Ideal.Laws
import Idealize.ShloMosaic.Lib.ValueLayout

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

abbrev DD4 : DotDims S256x512 S512x2000 S256x2000 := dot_S256x512_S512x2000_S256x2000_1_0_0_1_n_n

theorem mm4_apply (A : FVec Ideal S256x512 .f32) (B : FVec Ideal S512x2000 .f32) (p : Fin 256) (q : Fin 2000) :
    matmul DD4 none A B (constant (F := Ideal) S256x2000 .f32 0x00000000#32) (ix2 p q)
      = ∑ l : Fin 512, A (ix2 p l) * B (ix2 l q) :=
  mm_apply DD4 rfl rfl rfl rfl (fun _ _ => rfl) (fun _ _ => rfl) A B p q

section Reads
variable {s : Shape} {φ : FTy} (a : FVec Ideal s φ) (i : s.Idx)
theorem exp4_apply : exp a i = Ideal.exp (a i) := rfl
theorem log1p4_apply : log1p a i = Ideal.log1p (a i) := rfl
theorem logistic4_apply : logistic a i = Ideal.logistic (a i) := rfl
theorem absf4_apply : absf a i = max (a i) (-(a i)) := rfl
end Reads

theorem cmp_one_self4 (d : EReal) : Ideal.cmp .one d d = 0#1 := by
  unfold Ideal.cmp
  simp

theorem pay4_2_apply (v0 v2 : Vec Ideal S1x512 .f32) (v13 : Vec Ideal S256x512 .f32) (v19 v23 : Vec Ideal S1x512 .f32)
    (p : Fin 256) (q : Fin 512) :
    k4_pay2 v0 v2 v13 v19 v23 (ix2 p q)
      = Spec.leaky1 ((v13 (ix2 p q) - Ideal.div (v0 (ix2 0 q)) Spec.cN)
          * Ideal.rsqrt (Ideal.div (v2 (ix2 0 q)) Spec.cN - Ideal.div (v0 (ix2 0 q)) Spec.cN * Ideal.div (v0 (ix2 0 q)) Spec.cN + Spec.ceps)
          * v19 (ix2 0 q) + v23 (ix2 0 q)) := by
  unfold k4_pay2
  simp only [shapeCast_self, select_apply, cmpf_apply, mulf_apply, addf_apply, subf_apply, broadcast_apply,
    broadcastTo_1b_ab_apply]
  rfl

theorem pay4_5_apply (v31 : FVec Ideal S256x512 .f32) (v58 : Vec Ideal S512x2000 .f32) (v60 : Vec Ideal S1x2000 .f32)
    (p : Fin 256) (q : Fin 2000) :
    k4_pay5 v31 v58 v60 (ix2 p q) = (∑ l : Fin 512, v31 (ix2 p l) * v58 (ix2 l q)) + v60 (ix2 0 q) := by
  unfold k4_pay5
  simp only [shapeCast_self, addf_apply, broadcastTo_1b_ab_apply]
  exact congrArg (· + v60 (ix2 0 q)) (mm4_apply v31 v58 p q)

theorem pay4_4_apply (v34 : FVec Ideal S256x2000 .f32) (v35 : Vec Ideal S1x2000 .f32) (p : Fin 256) (q : Fin 2000) :
    k4_pay4 v34 v35 (ix2 p q) = Spec.clip1 (Spec.softplus1 (v34 (ix2 p q) + v35 (ix2 0 q))) := by
  unfold k4_pay4
  simp only [shapeCast_self, select_apply, cmpf_apply, maximumf_apply, minimumf_apply, addf_apply, subf_apply,
    exp4_apply, log1p4_apply, absf4_apply, broadcast_apply, broadcastTo_1b_ab_apply]
  rw [Ideal.cmpf_def, cmp_one_self4, select_zero]
  unfold Spec.clip1 Spec.softplus1 Spec.chi Spec.ceps Spec.z0
  simp only [Ideal.ofBits_def, Ideal.ofBits_zero_f32, zero_sub]

theorem pay4_6_apply (v31 : FVec Ideal S256x512 .f32) (v58 : Vec Ideal S512x2000 .f32) (v60 : Vec Ideal S1x2000 .f32)
    (p : Fin 256) (q : Fin 2000) :
    k4_pay6 v31 v58 v60 (ix2 p q) = Spec.clip1 (Ideal.exp (k4_pay5 v31 v58 v60 (ix2 p q))) := by
  unfold k4_pay6
  simp only [maximumf_apply, minimumf_apply, broadcast_apply]
  rfl

theorem pay4_7_apply (v31 : FVec Ideal S256x512 .f32) (v58 : Vec Ideal S512x2000 .f32) (v60 v70 : Vec Ideal S1x2000 .f32)
    (p : Fin 256) (q : Fin 2000) :
    k4_pay7 v31 v58 v60 v70 (ix2 p q) = k4_pay5 v31 v58 v60 (ix2 p q) * v70 (ix2 0 q) := by
  unfold k4_pay7
  simp only [shapeCast_self, mulf_apply, broadcastTo_1b_ab_apply]

theorem pay4_1_apply (v73 : FVec Ideal S256x2000 .f32) (v74 : Vec Ideal S1x2000 .f32) (p : Fin 256) (q : Fin 2000) :
    k4_pay1 v73 v74 (ix2 p q) = Ideal.logistic (v73 (ix2 p q) + v74 (ix2 0 q)) := by
  unfold k4_pay1
  simp only [shapeCast_self, logistic4_apply, addf_apply, broadcastTo_1b_ab_apply]

variable (V : (c : Dev nD) → (b : Ref sig .tc) → Buf (Elt Ideal) ((c : Thread nD τ).loc b))

theorem idx4_zero : ∀ (t : Fin cfg4.N) (a : Fin 2), win4_1.index t a = 0 ∧ win4_2.index t a = 0 ∧ win4_3.index t a = 0
    ∧ win4_4.index t a = 0 ∧ win4_5.index t a = 0 ∧ win4_6.index t a = 0 ∧ win4_7.index t a = 0 ∧ win4_8.index t a = 0
    ∧ win4_9.index t a = 0 :=
  (by decide +kernel : ∀ t : Fin grid4.N, _)

theorem idx4_row : ∀ t : Fin cfg4.N, (win4_0.index t 0 = t.val ∧ win4_0.index t 1 = 0)
    ∧ (win4_10.index t 0 = t.val ∧ win4_10.index t 1 = 0) ∧ (win4_11.index t 0 = t.val ∧ win4_11.index t 1 = 0)
    ∧ (win4_12.index t 0 = t.val ∧ win4_12.index t 1 = 0) ∧ (win4_13.index t 0 = t.val ∧ win4_13.index t 1 = 0) :=
  (by decide +kernel : ∀ t : Fin grid4.N, _)

-- a window whose block index is zero on every axis reads its whole array
theorem iblk4_1_eq (c : Dev nD) (t : Fin cfg4.N) : (Hand.iblk4 V c 1 t : Vec Ideal S8x512 .f32) = V c main_v10_2 :=
  funext fun j => congrArg (V c main_v10_2 : S8x512.Idx → EReal)
    (funext fun a => Fin.ext (win4_1.rect_emb_val_of_index_zero t a (idx4_zero t a).1 j))
theorem iblk4_2_eq (c : Dev nD) (t : Fin cfg4.N) : (Hand.iblk4 V c 2 t : Vec Ideal S1x512 .f32) = V c main_v2 :=
  funext fun j => congrArg (V c main_v2 : S1x512.Idx → EReal)
    (funext fun a => Fin.ext (win4_2.rect_emb_val_of_index_zero t a (idx4_zero t a).2.1 j))
theorem iblk4_3_eq (c : Dev nD) (t : Fin cfg4.N) : (Hand.iblk4 V c 3 t : Vec Ideal S1x512 .f32) = V c main_v3 :=
  funext fun j => congrArg (V c main_v3 : S1x512.Idx → EReal)
    (funext fun a => Fin.ext (win4_3.rect_emb_val_of_index_zero t a (idx4_zero t a).2.2.1 j))
theorem iblk4_4_eq (c : Dev nD) (t : Fin cfg4.N) : (Hand.iblk4 V c 4 t : Vec Ideal S512x2000 .f32) = V c main_arg9 :=
  funext fun j => congrArg (V c main_arg9 : S512x2000.Idx → EReal)
    (funext fun a => Fin.ext (win4_4.rect_emb_val_of_index_zero t a (idx4_zero t a).2.2.2.1 j))
theorem iblk4_5_eq (c : Dev nD) (t : Fin cfg4.N) : (Hand.iblk4 V c 5 t : Vec Ideal S1x2000 .f32) = V c main_v4 :=
  funext fun j => congrArg (V c main_v4 : S1x2000.Idx → EReal)
    (funext fun a => Fin.ext (win4_5.rect_emb_val_of_index_zero t a (idx4_zero t a).2.2.2.2.1 j))
theorem iblk4_6_eq (c : Dev nD) (t : Fin cfg4.N) : (Hand.iblk4 V c 6 t : Vec Ideal S512x2000 .f32) = V c main_arg11 :=
  funext fun j => congrArg (V c main_arg11 : S512x2000.Idx → EReal)
    (funext fun a => Fin.ext (win4_6.rect_emb_val_of_index_zero t a (idx4_zero t a).2.2.2.2.2.1 j))
theorem iblk4_7_eq (c : Dev nD) (t : Fin cfg4.N) : (Hand.iblk4 V c 7 t : Vec Ideal S1x2000 .f32) = V c main_v5 :=
  funext fun j => congrArg (V c main_v5 : S1x2000.Idx → EReal)
    (funext fun a => Fin.ext (win4_7.rect_emb_val_of_index_zero t a (idx4_zero t a).2.2.2.2.2.2.1 j))
theorem iblk4_8_eq (c : Dev nD) (t : Fin cfg4.N) : (Hand.iblk4 V c 8 t : Vec Ideal S1x2000 .f32) = V c main_v6 :=
  funext fun j => congrArg (V c main_v6 : S1x2000.Idx → EReal)
    (funext fun a => Fin.ext (win4_8.rect_emb_val_of_index_zero t a (idx4_zero t a).2.2.2.2.2.2.2.1 j))
theorem iblk4_9_eq (c : Dev nD) (t : Fin cfg4.N) : (Hand.iblk4 V c 9 t : Vec Ideal S1x2000 .f32) = V c main_v7 :=
  funext fun j => congrArg (V c main_v7 : S1x2000.Idx → EReal)
    (funext fun a => Fin.ext (win4_9.rect_emb_val_of_index_zero t a (idx4_zero t a).2.2.2.2.2.2.2.2 j))

-- the read block at point t is rows 256 t … 256 t + 255 of its array
theorem iblk4_0_apply (c : Dev nD) (t : Fin cfg4.N) (p : Fin 256) (r : Fin 4096) (l : Fin 512) (hr : r.val = t.val * 256 + p.val) :
    (Hand.iblk4 V c 0 t : Vec Ideal S256x512 .f32) (ix2 p l) = (V c main_v10_1 : S4096x512.Idx → EReal) (ix2 r l) :=
  congrArg (V c main_v10_1 : S4096x512.Idx → EReal) (Shape.idx_ext₂
    ((win4_0.rect_emb_val t _ 0).trans ((congrArg (· * 256 + p.val) (idx4_row t).1.1).trans hr.symm))
    (win4_0.rect_emb_val_of_index_zero t 1 (idx4_row t).1.2 _))

theorem ld4_row0 (x1 : Vec Ideal S8x512 .f32) (q : Fin 512) : View.ld x1 Hand.r4_0 (ix2 (0 : Fin 1) q) = x1 (ix2 (0 : Fin 8) q) :=
  congrArg x1 (Shape.idx_ext₂ rfl (by simp [Rect.emb_apply]))
theorem ld4_row1 (x1 : Vec Ideal S8x512 .f32) (q : Fin 512) : View.ld x1 Hand.r4_1 (ix2 (0 : Fin 1) q) = x1 (ix2 (1 : Fin 8) q) :=
  congrArg x1 (Shape.idx_ext₂ rfl (by simp [Rect.emb_apply]))

abbrev bn4 (H : Spec.A2 4096 512) (x1 : Vec Ideal S8x512 .f32) (x2 x3 : Vec Ideal S1x512 .f32) : Spec.A2 4096 512 :=
  Spec.bnK H (fun j => x1 (ix2 0 j)) (fun j => x1 (ix2 1 j)) (fun j => x2 (ix2 0 j)) (fun j => x3 (ix2 0 j))

theorem lin4_at (A : FVec Ideal S256x512 .f32) (w : Vec Ideal S512x2000 .f32) (b : Vec Ideal S1x2000 .f32)
    (O : Spec.A2 4096 512) (p : Fin 256) (r : Fin 4096) (q : Fin 2000) (hA : ∀ l : Fin 512, A (ix2 p l) = O (ix2 r l)) :
    (∑ l : Fin 512, A (ix2 p l) * w (ix2 l q)) + b (ix2 0 q) = Spec.lin O w (fun j => b (ix2 0 j)) (ix2 r q) := by
  unfold Spec.lin Spec.mm
  exact congrArg (· + b (ix2 0 q)) (Finset.sum_congr rfl fun l _ => by rw [hA l])

section Out
variable {x0 : Vec Ideal S256x512 .f32} {H : Spec.A2 4096 512} {tv : Nat}
  (hx0 : ∀ (p : Fin 256) (r : Fin 4096) (l : Fin 512), r.val = tv * 256 + p.val → x0 (ix2 p l) = H (ix2 r l))
  (x1 : Vec Ideal S8x512 .f32) (x2 x3 : Vec Ideal S1x512 .f32) (p : Fin 256) (r : Fin 4096) (hr : r.val = tv * 256 + p.val)
include hx0 hr

-- row p of the normalised block is row r of the normalised array
theorem bn4_at (l : Fin 512) :
    k4_pay2 (View.ld x1 Hand.r4_0) (View.ld x1 Hand.r4_1) x0 x2 x3 (ix2 p l) = bn4 H x1 x2 x3 (ix2 r l) := by
  rw [pay4_2_apply, ld4_row0, ld4_row1, hx0 p r l hr]
  rfl

theorem out4_10_at (q : Fin 512) : Hand.out4_10 x0 x1 x2 x3 (ix2 p q) = bn4 H x1 x2 x3 (ix2 r q) := by
  unfold Hand.out4_10
  simp only [canon_whole, ld_whole]
  exact bn4_at hx0 x1 x2 x3 p r hr q

theorem out4_11_at (x4 : Vec Ideal S512x2000 .f32) (x5 : Vec Ideal S1x2000 .f32) (q : Fin 2000) :
    Hand.out4_11 x0 x1 x2 x3 x4 x5 (ix2 p q) = Spec.thetaOf (bn4 H x1 x2 x3) x4 (fun j => x5 (ix2 0 j)) (ix2 r q) := by
  unfold Hand.out4_11 k4_pay3
  simp only [canon_whole, ld_whole]
  rw [pay4_4_apply, mm4_apply]
  exact congrArg (fun z => Spec.clip1 (Spec.softplus1 z)) (lin4_at _ x4 x5 _ p r q (bn4_at hx0 x1 x2 x3 p r hr))

theorem out4_12_at (x6 : Vec Ideal S512x2000 .f32) (x7 : Vec Ideal S1x2000 .f32) (q : Fin 2000) :
    Hand.out4_12 x0 x1 x2 x3 x6 x7 (ix2 p q) = Spec.meanOf (bn4 H x1 x2 x3) x6 (fun j => x7 (ix2 0 j)) (ix2 r q) := by
  unfold Hand.out4_12
  simp only [canon_whole, ld_whole]
  rw [pay4_6_apply, pay4_5_apply, lin4_at _ x6 x7 _ p r q (bn4_at hx0 x1 x2 x3 p r hr)]
  rfl

theorem out4_13_at (x6 : Vec Ideal S512x2000 .f32) (x7 x8 x9 : Vec Ideal S1x2000 .f32) (q : Fin 2000) :
    Hand.out4_13 x0 x1 x2 x3 x6 x7 x8 x9 (ix2 p q)
      = Spec.piOf (bn4 H x1 x2 x3) x6 (fun j => x7 (ix2 0 j)) (fun j => x8 (ix2 0 j)) (fun j => x9 (ix2 0 j)) (ix2 r q) := by
  unfold Hand.out4_13
  simp only [canon_whole, ld_whole]
  rw [pay4_1_apply, pay4_7_apply, pay4_5_apply, lin4_at _ x6 x7 _ p r q (bn4_at hx0 x1 x2 x3 p r hr)]
  rfl

end Out

abbrev O4 (c : Dev nD) : Spec.A2 4096 512 :=
  Spec.bnK (V c main_v10_1) (fun j => V c main_v10_2 (ix2 0 j)) (fun j => V c main_v10_2 (ix2 1 j))
    (fun j => V c main_v2 (ix2 0 j)) (fun j => V c main_v3 (ix2 0 j))

theorem arr4_10 (c : Dev nD) : ((Hand.dat4 (F := Ideal) V c).arrAt 10 cfg4.N : Spec.A2 4096 512) = O4 V c :=
  (Hand.dat4 V c).arrAt_eq_of_cover 10 (O4 V c) (fun t _ => by
    show (cfg4.win 10).cut (grid4.coords t) ((Hand.dat4 V c).after 10 t) = _
    rw [Hand.after4_10, iblk4_1_eq, iblk4_2_eq, iblk4_3_eq]
    exact funext fun j => rows_ext _ (O4 V c) t.val (fun p r q hr => out4_10_at (iblk4_0_apply V c t) _ _ _ p r hr q) _ _
      ((win4_10.rect_emb_val t j 0).trans (congrArg (· * 256 + (j 0).val) (idx4_row t).2.1.1))
      (win4_10.rect_emb_val_of_index_zero t 1 (idx4_row t).2.1.2 j)) fun i => by
    obtain ⟨t, ht⟩ := rows_cover (R := 256) (n := 512) (by decide) (by rw [N_4]) i win4_10.index fun t => (idx4_row t).2.1
    refine ⟨t, flush4_10 t, ?_⟩
    show i ∈ ((View.whole main_v15_0).slice (win4_10.rect t)).set
    rw [View.set_slice_whole, Rect.mem_set_unit]
    exact ht

abbrev Th4 (c : Dev nD) : Spec.A2 4096 2000 :=
  Spec.thetaOf (O4 V c) (V c main_arg9) (fun j => V c main_v4 (ix2 0 j))

theorem arr4_11 (c : Dev nD) : ((Hand.dat4 (F := Ideal) V c).arrAt 11 cfg4.N : Spec.A2 4096 2000) = Th4 V c :=
  (Hand.dat4 V c).arrAt_eq_of_cover 11 (Th4 V c) (fun t _ => by
    show (cfg4.win 11).cut (grid4.coords t) ((Hand.dat4 V c).after 11 t) = _
    rw [Hand.after4_11, iblk4_1_eq, iblk4_2_eq, iblk4_3_eq, iblk4_4_eq, iblk4_5_eq]
    exact funext fun j => rows_ext _ (Th4 V c) t.val (fun p r q hr => out4_11_at (iblk4_0_apply V c t) _ _ _ p r hr _ _ q) _ _
      ((win4_11.rect_emb_val t j 0).trans (congrArg (· * 256 + (j 0).val) (idx4_row t).2.2.1.1))
      (win4_11.rect_emb_val_of_index_zero t 1 (idx4_row t).2.2.1.2 j)) fun i => by
    obtain ⟨t, ht⟩ := rows_cover (R := 256) (n := 2000) (by decide) (by rw [N_4]) i win4_11.index fun t => (idx4_row t).2.2.1
    refine ⟨t, flush4_11 t, ?_⟩
    show i ∈ ((View.whole main_v15_1).slice (win4_11.rect t)).set
    rw [View.set_slice_whole, Rect.mem_set_unit]
    exact ht

end Cert.KernelIdeal.Val

end
-- ==== Proof.KI.Val4b.lean ====
import proofs.«141970_g2173253451805_cont_8to1_1923_2_alg».proof.Proof.KI.Val4
import proofs.«141970_g2173253451805_cont_8to1_1923_2_alg».proof.Proof.KI.Reg4Defs
import proofs.«141970_g2173253451805_cont_8to1_1923_2_alg».proof.Proof.Spec
import Idealize.ShloMosaic.Lib.ValueIdx
import Idealize.ShloMosaic.Lib.Pipeline.Value
import Idealize.ShloMosaic.PureOps.Ideal.Laws
import Idealize.ShloMosaic.Lib.ValueLayout

noncomputable section

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem arr4_12 (c : Dev nD) :
    ((Hand.dat4 (F := Ideal) V c).arrAt 12 cfg4.N : Spec.A2 4096 2000) = Spec.meanOf (O4 V c) (V c main_arg11) (fun j => V c main_v5 (ix2 0 j)) :=
  (Hand.dat4 V c).arrAt_eq_of_cover 12 _ (fun t _ => by
    show (cfg4.win 12).cut (grid4.coords t) ((Hand.dat4 V c).after 12 t) = _
    rw [Hand.after4_12, iblk4_1_eq, iblk4_2_eq, iblk4_3_eq, iblk4_6_eq, iblk4_7_eq]
    exact funext fun j => rows_ext _ (Spec.meanOf (O4 V c) (V c main_arg11) (fun j => V c main_v5 (ix2 0 j))) t.val
      (fun p r q hr => out4_12_at (iblk4_0_apply V c t) _ _ _ p r hr _ _ q) _ _
      ((win4_12.rect_emb_val t j 0).trans (congrArg (· * 256 + (j 0).val) (idx4_row t).2.2.2.1.1))
      (win4_12.rect_emb_val_of_index_zero t 1 (idx4_row t).2.2.2.1.2 j)) fun i => by
    obtain ⟨t, ht⟩ := rows_cover (R := 256) (n := 2000) (by decide) (by rw [N_4]) i win4_12.index fun t => (idx4_row t).2.2.2.1
    refine ⟨t, flush4_12 t, ?_⟩
    show i ∈ ((View.whole main_v15_2).slice (win4_12.rect t)).set
    rw [View.set_slice_whole, Rect.mem_set_unit]
    exact ht

theorem arr4_13 (c : Dev nD) :
    ((Hand.dat4 (F := Ideal) V c).arrAt 13 cfg4.N : Spec.A2 4096 2000) = Spec.piOf (O4 V c) (V c main_arg11) (fun j => V c main_v5 (ix2 0 j)) (fun j => V c main_v6 (ix2 0 j)) (fun j => V c main_v7 (ix2 0 j)) :=
  (Hand.dat4 V c).arrAt_eq_of_cover 13 _ (fun t _ => by
    show (cfg4.win 13).cut (grid4.coords t) ((Hand.dat4 V c).after 13 t) = _
    rw [Hand.after4_13, iblk4_1_eq, iblk4_2_eq, iblk4_3_eq, iblk4_6_eq, iblk4_7_eq, iblk4_8_eq, iblk4_9_eq]
    exact funext fun j => rows_ext _
      (Spec.piOf (O4 V c) (V c main_arg11) (fun j => V c main_v5 (ix2 0 j)) (fun j => V c main_v6 (ix2 0 j)) (fun j => V c main_v7 (ix2 0 j))) t.val
      (fun p r q hr => out4_13_at (iblk4_0_apply V c t) _ _ _ p r hr _ _ _ _ q) _ _
      ((win4_13.rect_emb_val t j 0).trans (congrArg (· * 256 + (j 0).val) (idx4_row t).2.2.2.2.1))
      (win4_13.rect_emb_val_of_index_zero t 1 (idx4_row t).2.2.2.2.2 j)) fun i => by
    obtain ⟨t, ht⟩ := rows_cover (R := 256) (n := 2000) (by decide) (by rw [N_4]) i win4_13.index fun t => (idx4_row t).2.2.2.2
    refine ⟨t, flush4_13 t, ?_⟩
    show i ∈ ((View.whole main_v15_3).slice (win4_13.rect t)).set
    rw [View.set_slice_whole, Rect.mem_set_unit]
    exact ht

end Cert.KernelIdeal.Val

end
-- ==== Proof.KI.Chain.lean ====
import proofs.«141970_g2173253451805_cont_8to1_1923_2_alg».proof.Proof.KI.Fold
import proofs.«141970_g2173253451805_cont_8to1_1923_2_alg».proof.Proof.KI.ChainLib
import proofs.«141970_g2173253451805_cont_8to1_1923_2_alg».proof.Proof.Spec
import proofs.«141970_g2173253451805_cont_8to1_1923_2_alg».proof.Proof.SpecIdx
import proofs.«141970_g2173253451805_cont_8to1_1923_2_alg».proof.Proof.KI.Val0
import proofs.«141970_g2173253451805_cont_8to1_1923_2_alg».proof.Proof.KI.Val1
import proofs.«141970_g2173253451805_cont_8to1_1923_2_alg».proof.Proof.KI.Val2
import proofs.«141970_g2173253451805_cont_8to1_1923_2_alg».proof.Proof.KI.Val2Stats
import proofs.«141970_g2173253451805_cont_8to1_1923_2_alg».proof.Proof.KI.Val3
import proofs.«141970_g2173253451805_cont_8to1_1923_2_alg».proof.Proof.KI.Val4
import proofs.«141970_g2173253451805_cont_8to1_1923_2_alg».proof.Proof.KI.Val4b

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open Hand Compose

variable (m : (ℓ : Loc nD τ sig) → Buf (Elt Ideal) ℓ) (ρ : Dev nD → PrngReg) (c : Dev nD)

/-- The fifteen arguments as launched on core `c`. -/
noncomputable def argsK : Spec.Args where
  x := m ((c : Thread nD τ).loc main_arg0)
  adj := m ((c : Thread nD τ).loc main_arg1)
  w1 := m ((c : Thread nD τ).loc main_arg2)
  g2 := m ((c : Thread nD τ).loc main_arg3)
  g2s := m ((c : Thread nD τ).loc main_arg4)
  fw := m ((c : Thread nD τ).loc main_arg5)
  fb := fun j => m ((c : Thread nD τ).loc main_arg6) (ix1 j)
  gam := fun j => m ((c : Thread nD τ).loc main_arg7) (ix1 j)
  bet := fun j => m ((c : Thread nD τ).loc main_arg8) (ix1 j)
  tw := m ((c : Thread nD τ).loc main_arg9)
  tb := fun j => m ((c : Thread nD τ).loc main_arg10) (ix1 j)
  mw := m ((c : Thread nD τ).loc main_arg11)
  mb := fun j => m ((c : Thread nD τ).loc main_arg12) (ix1 j)
  pw := fun j => m ((c : Thread nD τ).loc main_arg13) (ix1 j)
  pb := fun j => m ((c : Thread nD τ).loc main_arg14) (ix1 j)

namespace Compose

theorem V1_arg0 : (V1 m ρ c main_arg0 : Spec.A2 4096 2000) = (argsK m c).x :=
  (W1_keep m ρ c main_arg0 (by decide)).trans rfl

theorem V1_arg2 : (V1 m ρ c main_arg2 : Spec.A2 2000 512) = (argsK m c).w1 :=
  (W1_keep m ρ c main_arg2 (by decide)).trans rfl

/-- Region 0 leaves x · w1: its two inputs are untouched arguments. -/
theorem V2_v8 : (V2 m ρ c main_v8 : Spec.A2 4096 512) = Spec.mm (argsK m c).x (argsK m c).w1 :=
  (W2_arr m ρ c 2).trans <| (arr0_2 (V1 m ρ) c).trans <| congrArg₂ Spec.mm (V1_arg0 m ρ c) (V1_arg2 m ρ c)

theorem V2_arg1 : (V2 m ρ c main_arg1 : Spec.A2 4096 4096) = (argsK m c).adj :=
  (W2_keep m ρ c main_arg1 (by decide)).trans <| (W1_keep m ρ c main_arg1 (by decide)).trans rfl

theorem V2_v0 : (V2 m ρ c main_v0 : Spec.A2 512 256) = Spec.catC (argsK m c).g2 (argsK m c).g2s :=
  (W2_keep m ρ c main_v0 (by decide)).trans (host0_v0 (W0 m ρ c))

/-- Region 1 leaves leaky (adj · (x · w1)) · [g2 | g2s], the two second-layer weights side by side. -/
theorem V3_v9 : (V3 m ρ c main_v9 : Spec.A2 4096 256)
    = Spec.mm (argsK m c).h1 (Spec.catC (argsK m c).g2 (argsK m c).g2s) :=
  (W3_arr m ρ c 3).trans <| (arr1_3 (V2 m ρ) c).trans <|
    congrArg₂ Spec.mm (congrArg Spec.leaky (congrArg₂ Spec.mm (V2_arg1 m ρ c) (V2_v8 m ρ c))) (V2_v0 m ρ c)

theorem V3_arg1 : (V3 m ρ c main_arg1 : Spec.A2 4096 4096) = (argsK m c).adj :=
  (W3_keep m ρ c main_arg1 (by decide)).trans (V2_arg1 m ρ c)

theorem V3_arg5 : (V3 m ρ c main_arg5 : Spec.A2 128 512) = (argsK m c).fw :=
  (W3_keep m ρ c main_arg5 (by decide)).trans <| (W2_keep m ρ c main_arg5 (by decide)).trans <|
    (W1_keep m ρ c main_arg5 (by decide)).trans rfl

theorem V3_v1 : (fun j : Fin 512 => (V3 m ρ c main_v1 : Spec.A2 1 512) (ix2 0 j)) = (argsK m c).fb :=
  funext fun j => (congrFun ((W3_keep m ρ c main_v1 (by decide)).trans (W2_keep m ρ c main_v1 (by decide))) (ix2 0 j)).trans
    (host0_v1 (W0 m ρ c) j)

theorem V3_ml : Spec.leaky (Spec.mm (V3 m ρ c main_arg1) (V3 m ρ c main_v9))
    = Spec.leaky (Spec.mm (argsK m c).adj (Spec.mm (argsK m c).h1 (Spec.catC (argsK m c).g2 (argsK m c).g2s))) :=
  congrArg Spec.leaky (congrArg₂ Spec.mm (V3_arg1 m ρ c) (V3_v9 m ρ c))

theorem W4_v10_0 : (W4 m ρ c (Proc.devRef .tc main_v10_0) : Spec.A2 4096 256)
    = Spec.leaky (Spec.mm (argsK m c).adj (Spec.mm (argsK m c).h1 (Spec.catC (argsK m c).g2 (argsK m c).g2s))) :=
  (W4_arr m ρ c 4).trans <| (arr2_4 (V3 m ρ) c).trans (V3_ml m ρ c)

/-- The left half of the pair of heads is mu, the right half logvar. -/
theorem colsL_heads (a : Spec.Args) :
    Spec.colsL (Spec.leaky (Spec.mm a.adj (Spec.mm a.h1 (Spec.catC a.g2 a.g2s)))) = a.MU :=
  Spec.head_L a.adj a.h1 a.g2 a.g2s

theorem colsR_heads (a : Spec.Args) :
    Spec.colsR (Spec.leaky (Spec.mm a.adj (Spec.mm a.h1 (Spec.catC a.g2 a.g2s)))) = a.LV :=
  Spec.head_R a.adj a.h1 a.g2 a.g2s

/-- Region 2's dense layer, read from its entry contents, is the dense layer on mu. -/
theorem V3_hh : Spec.dense (Spec.colsL (Spec.leaky (Spec.mm (V3 m ρ c main_arg1) (V3 m ρ c main_v9)))) (V3 m ρ c main_arg5)
      (fun j => (V3 m ρ c main_v1 : Spec.A2 1 512) (ix2 0 j)) = (argsK m c).HH :=
  congr3 Spec.dense ((congrArg Spec.colsL (V3_ml m ρ c)).trans (colsL_heads _)) (V3_arg5 m ρ c) (V3_v1 m ρ c)

theorem W4_v10_1 : (W4 m ρ c (Proc.devRef .tc main_v10_1) : Spec.A2 4096 512) = (argsK m c).HH :=
  (W4_arr m ρ c 5).trans <| (arr2_5 (V3 m ρ) c).trans (V3_hh m ρ c)

theorem W4_v10_2_sum (j : Fin 512) :
    (W4 m ρ c (Proc.devRef .tc main_v10_2) : Spec.A2 8 512) (ix2 0 j) = Spec.csum (argsK m c).HH j :=
  (congrFun (W4_arr m ρ c 6) (ix2 0 j)).trans <| (arr2_6_sum (V3 m ρ) c j).trans <|
    congrArg (fun h => Spec.csum h j) (V3_hh m ρ c)

theorem W4_v10_2_sq (j : Fin 512) :
    (W4 m ρ c (Proc.devRef .tc main_v10_2) : Spec.A2 8 512) (ix2 1 j) = Spec.csumsq (argsK m c).HH j :=
  (congrFun (W4_arr m ρ c 6) (ix2 1 j)).trans <| (arr2_6_sq (V3 m ρ) c j).trans <|
    congrArg (fun h => Spec.csumsq h j) (V3_hh m ρ c)

theorem V5_v11 : (V5 m ρ c main_v11 : Spec.A2 4096 128) = (argsK m c).MU :=
  (host3_v11 (W4 m ρ c)).trans <| (congrArg Spec.colsL (W4_v10_0 m ρ c)).trans (colsL_heads _)

theorem V5_v12 : (V5 m ρ c main_v12 : Spec.A2 4096 128) = (argsK m c).LV :=
  (host3_v12 (W4 m ρ c)).trans <| (congrArg Spec.colsR (W4_v10_0 m ρ c)).trans (colsR_heads _)

theorem V5_v13 : (V5 m ρ c main_v13 : Spec.A2 128 4096) = Spec.tr (argsK m c).MU :=
  (host3_v13 (W4 m ρ c)).trans <| congrArg Spec.tr ((congrArg Spec.colsL (W4_v10_0 m ρ c)).trans (colsL_heads _))

/-- Region 3 leaves mu · muᵀ, which is the Gram matrix. -/
theorem W6_v14 : (W6 m ρ c (Proc.devRef .tc main_v14) : Spec.A2 4096 4096) = Spec.gram (argsK m c).MU :=
  (W6_arr m ρ c 2).trans <| (arr3_2 (V5 m ρ) c).trans <|
    (congrArg₂ Spec.mm (V5_v11 m ρ c) (V5_v13 m ρ c)).trans (Spec.mm_tr _)

/-- A buffer only the first host stretch writes reaches region 4 as that stretch left it. -/
theorem V6_of_host0 (b : Ref sig .tc)
    (k0 : ∀ w, Pipeline.arrRef spec0 w = b → (cfg0.win w).isOut = false) (k1 : ∀ w, Pipeline.arrRef spec1 w = b → (cfg1.win w).isOut = false)
    (k2 : ∀ w, Pipeline.arrRef spec2 w = b → (cfg2.win w).isOut = false) (h5 : b ∉ ([main_v11, main_v12, main_v13] : List (Ref sig .tc)))
    (k3 : ∀ w, Pipeline.arrRef spec3 w = b → (cfg3.win w).isOut = false) :
    W6 m ρ c (Proc.devRef .tc b) = W1 m ρ c (Proc.devRef .tc b) :=
  (W6_keep m ρ c b k3).trans <| (W5_keep m ρ c b h5).trans <| (W4_keep m ρ c b k2).trans <|
    (W3_keep m ρ c b k1).trans (W2_keep m ρ c b k0)

theorem V6_v10_1 : (V6 m ρ c main_v10_1 : Spec.A2 4096 512) = (argsK m c).HH :=
  (W6_keep m ρ c main_v10_1 (by decide)).trans <| (W5_keep m ρ c main_v10_1 (by decide)).trans (W4_v10_1 m ρ c)

theorem V6_v10_2_sum : (fun j : Fin 512 => (V6 m ρ c main_v10_2 : Spec.A2 8 512) (ix2 0 j)) = Spec.csum (argsK m c).HH :=
  funext fun j => (congrFun ((W6_keep m ρ c main_v10_2 (by decide)).trans (W5_keep m ρ c main_v10_2 (by decide))) (ix2 0 j)).trans
    (W4_v10_2_sum m ρ c j)

theorem V6_v10_2_sq : (fun j : Fin 512 => (V6 m ρ c main_v10_2 : Spec.A2 8 512) (ix2 1 j)) = Spec.csumsq (argsK m c).HH :=
  funext fun j => (congrFun ((W6_keep m ρ c main_v10_2 (by decide)).trans (W5_keep m ρ c main_v10_2 (by decide))) (ix2 1 j)).trans
    (W4_v10_2_sq m ρ c j)

theorem V6_v2 : (fun j : Fin 512 => (V6 m ρ c main_v2 : Spec.A2 1 512) (ix2 0 j)) = (argsK m c).gam :=
  funext fun j => (congrFun (V6_of_host0 m ρ c main_v2 (by decide) (by decide) (by decide) (by decide) (by decide)) (ix2 0 j)).trans
    (host0_v2 (W0 m ρ c) j)

theorem V6_v3 : (fun j : Fin 512 => (V6 m ρ c main_v3 : Spec.A2 1 512) (ix2 0 j)) = (argsK m c).bet :=
  funext fun j => (congrFun (V6_of_host0 m ρ c main_v3 (by decide) (by decide) (by decide) (by decide) (by decide)) (ix2 0 j)).trans
    (host0_v3 (W0 m ρ c) j)

theorem V6_v4 : (fun j : Fin 2000 => (V6 m ρ c main_v4 : Spec.A2 1 2000) (ix2 0 j)) = (argsK m c).tb :=
  funext fun j => (congrFun (V6_of_host0 m ρ c main_v4 (by decide) (by decide) (by decide) (by decide) (by decide)) (ix2 0 j)).trans
    (host0_v4 (W0 m ρ c) j)

theorem V6_v5 : (fun j : Fin 2000 => (V6 m ρ c main_v5 : Spec.A2 1 2000) (ix2 0 j)) = (argsK m c).mb :=
  funext fun j => (congrFun (V6_of_host0 m ρ c main_v5 (by decide) (by decide) (by decide) (by decide) (by decide)) (ix2 0 j)).trans
    (host0_v5 (W0 m ρ c) j)

theorem V6_v6 : (fun j : Fin 2000 => (V6 m ρ c main_v6 : Spec.A2 1 2000) (ix2 0 j)) = (argsK m c).pw :=
  funext fun j => (congrFun (V6_of_host0 m ρ c main_v6 (by decide) (by decide) (by decide) (by decide) (by decide)) (ix2 0 j)).trans
    (host0_v6 (W0 m ρ c) j)

theorem V6_v7 : (fun j : Fin 2000 => (V6 m ρ c main_v7 : Spec.A2 1 2000) (ix2 0 j)) = (argsK m c).pb :=
  funext fun j => (congrFun (V6_of_host0 m ρ c main_v7 (by decide) (by decide) (by decide) (by decide) (by decide)) (ix2 0 j)).trans
    (host0_v7 (W0 m ρ c) j)

theorem V6_arg9 : (V6 m ρ c main_arg9 : Spec.A2 512 2000) = (argsK m c).tw :=
  (V6_of_host0 m ρ c main_arg9 (by decide) (by decide) (by decide) (by decide) (by decide)).trans <|
    (W1_keep m ρ c main_arg9 (by decide)).trans rfl

theorem V6_arg11 : (V6 m ρ c main_arg11 : Spec.A2 512 2000) = (argsK m c).mw :=
  (V6_of_host0 m ρ c main_arg11 (by decide) (by decide) (by decide) (by decide) (by decide)).trans <|
    (W1_keep m ρ c main_arg11 (by decide)).trans rfl

/-- Region 4 normalises the dense layer on mu from the column sums region 2 left. -/
theorem V6_outk : Spec.bnK (V6 m ρ c main_v10_1) (fun j => (V6 m ρ c main_v10_2 : Spec.A2 8 512) (ix2 0 j))
      (fun j => (V6 m ρ c main_v10_2 : Spec.A2 8 512) (ix2 1 j)) (fun j => (V6 m ρ c main_v2 : Spec.A2 1 512) (ix2 0 j))
      (fun j => (V6 m ρ c main_v3 : Spec.A2 1 512) (ix2 0 j)) = (argsK m c).OUTK :=
  congr5 Spec.bnK (V6_v10_1 m ρ c) (V6_v10_2_sum m ρ c) (V6_v10_2_sq m ρ c) (V6_v2 m ρ c) (V6_v3 m ρ c)

end Compose

theorem W7_v11 : (W7 m ρ c (Proc.devRef .tc main_v11) : Spec.A2 4096 128) = (argsK m c).MU :=
  (W7_keep m ρ c main_v11 (by decide)).trans <| (W6_keep m ρ c main_v11 (by decide)).trans (V5_v11 m ρ c)

theorem W7_v12 : (W7 m ρ c (Proc.devRef .tc main_v12) : Spec.A2 4096 128) = (argsK m c).LV :=
  (W7_keep m ρ c main_v12 (by decide)).trans <| (W6_keep m ρ c main_v12 (by decide)).trans (V5_v12 m ρ c)

theorem W7_v14 : (W7 m ρ c (Proc.devRef .tc main_v14) : Spec.A2 4096 4096) = Spec.gram (argsK m c).MU :=
  (W7_keep m ρ c main_v14 (by decide)).trans (W6_v14 m ρ c)

theorem W7_v15_0 : (W7 m ρ c (Proc.devRef .tc main_v15_0) : Spec.A2 4096 512) = (argsK m c).OUTK :=
  (W7_arr m ρ c 10).trans <| (arr4_10 (V6 m ρ) c).trans (V6_outk m ρ c)

theorem W7_v15_1 : (W7 m ρ c (Proc.devRef .tc main_v15_1) : Spec.A2 4096 2000)
    = Spec.thetaOf (argsK m c).OUTK (argsK m c).tw (argsK m c).tb :=
  (W7_arr m ρ c 11).trans <| (arr4_11 (V6 m ρ) c).trans <|
    congr3 Spec.thetaOf (V6_outk m ρ c) (V6_arg9 m ρ c) (V6_v4 m ρ c)

theorem W7_v15_2 : (W7 m ρ c (Proc.devRef .tc main_v15_2) : Spec.A2 4096 2000)
    = Spec.meanOf (argsK m c).OUTK (argsK m c).mw (argsK m c).mb :=
  (W7_arr m ρ c 12).trans <| (arr4_12 (V6 m ρ) c).trans <|
    congr3 Spec.meanOf (V6_outk m ρ c) (V6_arg11 m ρ c) (V6_v5 m ρ c)

theorem W7_v15_3 : (W7 m ρ c (Proc.devRef .tc main_v15_3) : Spec.A2 4096 2000)
    = Spec.piOf (argsK m c).OUTK (argsK m c).mw (argsK m c).mb (argsK m c).pw (argsK m c).pb :=
  (W7_arr m ρ c 13).trans <| (arr4_13 (V6 m ρ) c).trans <|
    congr5 Spec.piOf (V6_outk m ρ c) (V6_arg11 m ρ c) (V6_v5 m ρ c) (V6_v6 m ρ c) (V6_v7 m ρ c)

end Cert.KernelIdeal.Val

end
-- ==== Proof.KI.Finite.lean ====
import proofs.«141970_g2173253451805_cont_8to1_1923_2_alg».proof.KernelIdeal
import proofs.«141970_g2173253451805_cont_8to1_1923_2_alg».proof.Pre_finite_inputs
import proofs.«141970_g2173253451805_cont_8to1_1923_2_alg».proof.Proof.Gen.Pre_finite_inputs
import proofs.«141970_g2173253451805_cont_8to1_1923_2_alg».proof.Proof.Spec
import Idealize.ShloMosaic.Lib.ReduceAll
import Idealize.ShloMosaic.Lib.ValueIdx

noncomputable section

namespace Cert.KernelIdeal.Val
open Idealize.ShloMosaic Idealize.ShloMosaic.ValueIdx Idealize.SL.Sem

theorem inf_val : Ideal.ofBits .f32 0x7F800000#32 = ⊤ := by simp [Ideal.ofBits, Ideal.ieee]

theorem real_of_abs_lt (x : EReal) (h : Ideal.cmp .olt (max x (-x)) (Ideal.ofBits .f32 0x7F800000#32) = 1#1) :
    ∃ r : ℝ, x = (r : EReal) := by
  rw [inf_val] at h
  induction x using EReal.rec with
  | bot => simp [Ideal.cmp] at h
  | coe r => exact ⟨r, rfl⟩
  | top => simp [Ideal.cmp] at h

instance : Subsingleton Cert.Pre_finite_inputs.S_.Idx := ⟨fun _ _ => funext fun d => d.elim0⟩

theorem allReal_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (cmpf .olt (Host.absf x) (broadcastInDim s ![] hb (constant Cert.Pre_finite_inputs.S_ .f32 0x7F800000#32)))
        (constantI Cert.Pre_finite_inputs.S_ 1 1#1) hr hu ix0 = 1#1) : Spec.AllReal x := fun i =>
  real_of_abs_lt (x i) (Host.reduce_andi_all _ _ hr hu ix0 e i)

theorem andi_ix0 (a b : IVec Cert.Pre_finite_inputs.S_ 1) (h : andi a b ix0 = 1#1) : a ix0 = 1#1 ∧ b ix0 = 1#1 :=
  IntOp.andi_eq_one.1 h

theorem finite_args (m : (ℓ : Loc nD τ sig) → Buf (Elt Ideal) ℓ)
    (hpre : ∀ c : Dev nD, (Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))) = (fun _ => 1#1))
    (c : Dev nD) :
    Spec.AllReal (s := S4096x2000) (m ((c.tc : Thread nD τ).loc main_arg0))
    ∧ Spec.AllReal (s := S4096x4096) (m ((c.tc : Thread nD τ).loc main_arg1))
    ∧ Spec.AllReal (s := S2000x512) (m ((c.tc : Thread nD τ).loc main_arg2))
    ∧ Spec.AllReal (s := S512x128) (m ((c.tc : Thread nD τ).loc main_arg3))
    ∧ Spec.AllReal (s := S128x512) (m ((c.tc : Thread nD τ).loc main_arg5))
    ∧ Spec.AllReal (s := S512) (m ((c.tc : Thread nD τ).loc main_arg6)) := by
  have h := congrFun (hpre c) ix0
  dsimp only [Cert.Pre_finite_inputs.fn, Cert.Pre_finite_inputs.fn_part1, Cert.Pre_finite_inputs.fn_part2,
    Cert.Pre_finite_inputs.fn_part3, Cert.Pre_finite_inputs.fn_part4] at h
  iterate 8 replace h := (andi_ix0 _ _ h).1
  obtain ⟨h, h6⟩ := andi_ix0 _ _ h
  obtain ⟨h, h5⟩ := andi_ix0 _ _ h
  obtain ⟨h, -⟩ := andi_ix0 _ _ h
  obtain ⟨h, h3⟩ := andi_ix0 _ _ h
  obtain ⟨h, h2⟩ := andi_ix0 _ _ h
  obtain ⟨h0, h1⟩ := andi_ix0 _ _ h
  exact ⟨allReal_of_all _ _ _ _ h0, allReal_of_all _ _ _ _ h1, allReal_of_all _ _ _ _ h2, allReal_of_all _ _ _ _ h3,
    allReal_of_all _ _ _ _ h5, allReal_of_all _ _ _ _ h6⟩

end Cert.KernelIdeal.Val

end
-- ==== Proof.Ref.Terms.lean ====
import proofs.«141970_g2173253451805_cont_8to1_1923_2_alg».proof.ReferenceIdeal
import proofs.«141970_g2173253451805_cont_8to1_1923_2_alg».proof.Proof.Gen.ReferenceIdeal
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem

-- A scalar literal on every entry of a shape.
def lit {T : Shape} (h : S_.BroadcastsInDim T ![]) (w : BitVec 32) : FVec Ideal T .f32 :=
  broadcastInDim T ![] h (constant (F := Ideal) S_ .f32 w)

-- A contraction of two f32 arrays.
def dg {s₁ s₂ s₃ : Shape} (d : DotDims s₁ s₂ s₃) (l : FVec Ideal s₁ .f32) (r : FVec Ideal s₂ .f32) : FVec Ideal s₃ .f32 :=
  Host.dotGeneral (F := Ideal) d none l r

-- The leaky rectifier: x where it is above zero, the slope times x elsewhere.
def leakyT {T : Shape} (h : S_.BroadcastsInDim T ![]) (x : FVec Ideal T .f32) : FVec Ideal T .f32 :=
  select (cmpf .ogt x (lit h 0x00000000#32)) x (mulf (lit h 0x3C23D70A#32) x)

-- A vector of 512 entries along every one of the 4096 rows.
def rows512 (v : FVec Ideal S512 .f32) : FVec Ideal S4096x512 .f32 :=
  broadcastInDim S4096x512 ![0, 1] bcast_S1x512_S4096x512_0_1 (broadcastInDim S1x512 ![1] bcast_S512_S1x512_1 v)

-- A vector of 2000 entries along every one of the 4096 rows.
def rows2000 (v : FVec Ideal S2000 .f32) : FVec Ideal S4096x2000 .f32 :=
  broadcastInDim S4096x2000 ![0, 1] bcast_S1x2000_S4096x2000_0_1 (broadcastInDim S1x2000 ![1] bcast_S2000_S1x2000_1 v)

-- The column sums of a 4096 × 512 matrix.
def colsum (x : FVec Ideal S4096x512 .f32) : FVec Ideal S512 .f32 :=
  Host.reduceAdd (F := Ideal) x (constant (F := Ideal) S_ .f32 0x00000000#32) reducesTo_S4096x512_S512_d0 h_S_

-- The column means.
def meanT (h : FVec Ideal S4096x512 .f32) : FVec Ideal S512 .f32 :=
  Host.divf (F := Ideal) (colsum h) (lit bcast_S_S512 0x45800000#32)

-- The variance's divisor: 4096 less the integer zero converted to a float.
def cnt : FVec Ideal S_ .f32 :=
  subf (constant (F := Ideal) S_ .f32 0x45800000#32) (sitofp (F := Ideal) .f32 (constantI S_ 32 0#32))

-- The deviations from the column means, the means taken on the one-row layout.
def devT (h : FVec Ideal S4096x512 .f32) : FVec Ideal S4096x512 .f32 :=
  subf h (broadcastInDim S4096x512 ![0, 1] bcast_S1x512_S4096x512_0_1
    (Host.divf (F := Ideal) (broadcastInDim S1x512 ![1] bcast_S512_S1x512_1 (colsum h)) (lit bcast_S_S1x512 0x45800000#32)))

-- The column variances: the mean squared deviation, kept where the divisor is positive.
def varT (h : FVec Ideal S4096x512 .f32) : FVec Ideal S512 .f32 :=
  select (broadcastInDim S512 ![] bcast_S_S512 (cmpf (F := Ideal) .ogt cnt (constant (F := Ideal) S_ .f32 0x00000000#32)))
    (Host.divf (F := Ideal) (colsum (mulf (devT h) (devT h))) (broadcastInDim S512 ![] bcast_S_S512 cnt))
    (lit bcast_S_S512 0x7FC00000#32)

-- Centre, divide by the root of variance plus epsilon, scale by gamma, shift by beta.
def normT (h : FVec Ideal S4096x512 .f32) (gam bet : FVec Ideal S512 .f32) : FVec Ideal S4096x512 .f32 :=
  addf (mulf (Host.divf (F := Ideal) (subf h (rows512 (meanT h)))
    (rows512 (Host.sqrt (F := Ideal) (addf (varT h) (lit bcast_S_S512 0x3727C5AC#32))))) (rows512 gam)) (rows512 bet)

-- A decoder head's affine part.
def linT (o : FVec Ideal S4096x512 .f32) (w : FVec Ideal S512x2000 .f32) (b : FVec Ideal S2000 .f32) : FVec Ideal S4096x2000 .f32 :=
  addf (dg dot_S4096x512_S512x2000_S4096x2000_1_0_0_1_n_n o w) (rows2000 b)

-- softplus: max (y, 0) + log1p (exp (−|y − 0|)), and y + 0 where y − 0 differs from itself.
def softplusT (y : FVec Ideal S4096x2000 .f32) : FVec Ideal S4096x2000 .f32 :=
  select (cmpf (F := Ideal) .une (subf y (lit bcast_S_S4096x2000 0x00000000#32)) (subf y (lit bcast_S_S4096x2000 0x00000000#32)))
    (addf y (lit bcast_S_S4096x2000 0x00000000#32))
    (addf (maximumf y (lit bcast_S_S4096x2000 0x00000000#32))
      (Host.log1p (F := Ideal) (Host.exp (F := Ideal) (Host.negf (F := Ideal) (Host.absf (F := Ideal) (subf y (lit bcast_S_S4096x2000 0x00000000#32)))))))

-- The clip: min (hi, max (lo, y)).
def clipT (y : FVec Ideal S4096x2000 .f32) : FVec Ideal S4096x2000 .f32 :=
  minimumf (lit bcast_S_S4096x2000 0x49742400#32) (maximumf (lit bcast_S_S4096x2000 0x3727C5AC#32) y)

-- The logistic function: 1 / (1 + exp (−z)).
def logisticT (z : FVec Ideal S4096x2000 .f32) : FVec Ideal S4096x2000 .f32 :=
  Host.divf (F := Ideal) (lit bcast_S_S4096x2000 0x3F800000#32)
    (addf (lit bcast_S_S4096x2000 0x3F800000#32) (Host.exp (F := Ideal) (Host.negf (F := Ideal) z)))

variable (V : Valuation τ sig (Elt Ideal))

-- The first layer: the leaky rectifier of adj · (x · w1).
def v6 : FVec Ideal S4096x512 .f32 :=
  leakyT bcast_S_S4096x512 (dg dot_S4096x4096_S4096x512_S4096x512_1_0_0_1_n_n (V (Proc.devRef .tc main_arg1))
    (dg dot_S4096x2000_S2000x512_S4096x512_1_0_0_1_n_n (V (Proc.devRef .tc main_arg0)) (V (Proc.devRef .tc main_arg2))))

-- A second-layer head: the leaky rectifier of adj · (h1 · g).
def hd (g : FVec Ideal S512x128 .f32) : FVec Ideal S4096x128 .f32 :=
  leakyT bcast_S_S4096x128 (dg dot_S4096x4096_S4096x128_S4096x128_1_0_0_1_n_n (V (Proc.devRef .tc main_arg1))
    (dg dot_S4096x512_S512x128_S4096x128_1_0_0_1_n_n (v6 V) g))

def v13 : FVec Ideal S4096x128 .f32 := hd V (V (Proc.devRef .tc main_arg3))

def v20 : FVec Ideal S4096x128 .f32 := hd V (V (Proc.devRef .tc main_arg4))

-- mu times its transpose.
def v22 : FVec Ideal S4096x4096 .f32 :=
  dg dot_S4096x128_S128x4096_S4096x4096_1_0_0_1_n_n (v13 V)
    (transpose S128x4096 [1, 0] (v13 V) transposes_S4096x128_S128x4096_1_0)

-- The dense layer on mu.
def v26 : FVec Ideal S4096x512 .f32 :=
  addf (dg dot_S4096x128_S128x512_S4096x512_1_0_0_1_n_n (v13 V) (V (Proc.devRef .tc main_arg5))) (rows512 (V (Proc.devRef .tc main_arg6)))

-- The normalised activations.
def v50 : FVec Ideal S4096x512 .f32 := leakyT bcast_S_S4096x512 (normT (v26 V) (V (Proc.devRef .tc main_arg7)) (V (Proc.devRef .tc main_arg8)))

def v56 : FVec Ideal S4096x2000 .f32 := clipT (softplusT (linT (v50 V) (V (Proc.devRef .tc main_arg9)) (V (Proc.devRef .tc main_arg10))))

def v60 : FVec Ideal S4096x2000 .f32 := linT (v50 V) (V (Proc.devRef .tc main_arg11)) (V (Proc.devRef .tc main_arg12))

def v62 : FVec Ideal S4096x2000 .f32 := clipT (Host.exp (F := Ideal) (v60 V))

def v74 : FVec Ideal S4096x2000 .f32 := logisticT (addf (mulf (v60 V) (rows2000 (V (Proc.devRef .tc main_arg13)))) (rows2000 (V (Proc.devRef .tc main_arg14))))

variable (m : (ℓ : Loc nD τ sig) → Buf (Elt Ideal) ℓ) (c : Dev nD)

def res_v22 : Buf (Elt Ideal) ((c.tc : Thread nD τ).loc main_v22) := v22 fun b => m (c, b)
def res_v13 : Buf (Elt Ideal) ((c.tc : Thread nD τ).loc main_v13) := v13 fun b => m (c, b)
def res_v20 : Buf (Elt Ideal) ((c.tc : Thread nD τ).loc main_v20) := v20 fun b => m (c, b)
def res_v50 : Buf (Elt Ideal) ((c.tc : Thread nD τ).loc main_v50) := v50 fun b => m (c, b)
def res_v74 : Buf (Elt Ideal) ((c.tc : Thread nD τ).loc main_v74) := v74 fun b => m (c, b)
def res_v56 : Buf (Elt Ideal) ((c.tc : Thread nD τ).loc main_v56) := v56 fun b => m (c, b)
def res_v62 : Buf (Elt Ideal) ((c.tc : Thread nD τ).loc main_v62) := v62 fun b => m (c, b)

-- The seven contraction records' congruence lemmas, named once for the modules that rewrite under them.
theorem dot_congr_declared : True := by
  have := @dot_S4096x2000_S2000x512_S4096x512_1_0_0_1_n_n.congr_simp
  have := @dot_S4096x4096_S4096x512_S4096x512_1_0_0_1_n_n.congr_simp
  have := @dot_S4096x512_S512x128_S4096x128_1_0_0_1_n_n.congr_simp
  have := @dot_S4096x4096_S4096x128_S4096x128_1_0_0_1_n_n.congr_simp
  have := @dot_S4096x128_S128x4096_S4096x4096_1_0_0_1_n_n.congr_simp
  have := @dot_S4096x128_S128x512_S4096x512_1_0_0_1_n_n.congr_simp
  have := @dot_S4096x512_S512x2000_S4096x2000_1_0_0_1_n_n.congr_simp
  trivial

end Cert.ReferenceIdeal.RefRun

end
-- ==== Proof.Ref.Run.lean ====
import proofs.«141970_g2173253451805_cont_8to1_1923_2_alg».proof.ReferenceIdeal
import proofs.«141970_g2173253451805_cont_8to1_1923_2_alg».proof.Proof.Gen.ReferenceIdeal
import proofs.«141970_g2173253451805_cont_8to1_1923_2_alg».proof.Proof.Ref.Terms
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev l0 : List (HloOp τ sig (Elt F)) :=
  [ binary main_arg0 main_arg2 main_v0 (fun l r => Host.dotGeneral dot_S4096x2000_S2000x512_S4096x512_1_0_0_1_n_n none l r),
    binary main_arg1 main_v0 main_v1 (fun l r => Host.dotGeneral dot_S4096x4096_S4096x512_S4096x512_1_0_0_1_n_n none l r),
    nullary main_cst (constant S_ .f32 0x00000000#32),
    unary main_cst main_v2 (broadcastInDim S4096x512 ![] bcast_S_S4096x512),
    binary main_v1 main_v2 main_v3 (cmpf .ogt),
    nullary main_cst_0 (constant S_ .f32 0x3C23D70A#32),
    unary main_cst_0 main_v4 (broadcastInDim S4096x512 ![] bcast_S_S4096x512),
    binary main_v4 main_v1 main_v5 mulf,
    TRef.ternary (.of main_v3) (.of main_v1) (.of main_v5) main_call0.v0 select,
    binary main_v6 main_arg3 main_v7 (fun l r => Host.dotGeneral dot_S4096x512_S512x128_S4096x128_1_0_0_1_n_n none l r),
    binary main_arg1 main_v7 main_v8 (fun l r => Host.dotGeneral dot_S4096x4096_S4096x128_S4096x128_1_0_0_1_n_n none l r),
    nullary main_cst_1 (constant S_ .f32 0x00000000#32),
    unary main_cst_1 main_v9 (broadcastInDim S4096x128 ![] bcast_S_S4096x128),
    binary main_v8 main_v9 main_v10 (cmpf .ogt),
    nullary main_cst_2 (constant S_ .f32 0x3C23D70A#32),
    unary main_cst_2 main_v11 (broadcastInDim S4096x128 ![] bcast_S_S4096x128),
    binary main_v11 main_v8 main_v12 mulf,
    TRef.ternary (.of main_v10) (.of main_v8) (.of main_v12) main_call1.v0 select,
    binary main_v6 main_arg4 main_v14 (fun l r => Host.dotGeneral dot_S4096x512_S512x128_S4096x128_1_0_0_1_n_n none l r),
    binary main_arg1 main_v14 main_v15 (fun l r => Host.dotGeneral dot_S4096x4096_S4096x128_S4096x128_1_0_0_1_n_n none l r),
    nullary main_cst_3 (constant S_ .f32 0x00000000#32),
    unary main_cst_3 main_v16 (broadcastInDim S4096x128 ![] bcast_S_S4096x128),
    binary main_v15 main_v16 main_v17 (cmpf .ogt),
    nullary main_cst_4 (constant S_ .f32 0x3C23D70A#32),
    unary main_cst_4 main_v18 (broadcastInDim S4096x128 ![] bcast_S_S4096x128),
    binary main_v18 main_v15 main_v19 mulf,
    TRef.ternary (.of main_v17) (.of main_v15) (.of main_v19) main_call2.v0 select ]

abbrev l1 : List (HloOp τ sig (Elt F)) :=
  [ unary main_v13 main_v21 (transpose S128x4096 [1, 0] · transposes_S4096x128_S128x4096_1_0),
    binary main_v13 main_v21 main_v22 (fun l r => Host.dotGeneral dot_S4096x128_S128x4096_S4096x4096_1_0_0_1_n_n none l r),
    binary main_v13 main_arg5 main_v23 (fun l r => Host.dotGeneral dot_S4096x128_S128x512_S4096x512_1_0_0_1_n_n none l r),
    unary main_arg6 main_v24 (broadcastInDim S1x512 ![1] bcast_S512_S1x512_1),
    unary main_v24 main_v25 (broadcastInDim S4096x512 ![0, 1] bcast_S1x512_S4096x512_0_1),
    binary main_v23 main_v25 main_v26 addf ]

abbrev l2 : List (HloOp τ sig (Elt F)) :=
  [ nullary main_cst_5 (constant S_ .f32 0x00000000#32),
    binary main_v26 main_cst_5 main_v27 (fun x v => Host.reduceAdd x v reducesTo_S4096x512_S512_d0 h_S_),
    nullary main_cst_6 (constant S_ .f32 0x45800000#32),
    unary main_cst_6 main_v28 (broadcastInDim S512 ![] bcast_S_S512),
    binary main_v27 main_v28 main_v29 Host.divf,
    nullary main_c (constantI S_ 32 0#32),
    TRef.nullary main_call3.cst (constant S_ .f32 0x00000000#32),
    TRef.binary (.of main_v26) main_call3.cst main_call3.v0 (fun x v => Host.reduceAdd x v reducesTo_S4096x512_S512_d0 h_S_),
    TRef.unary main_call3.v0 main_call3.v1 (broadcastInDim S1x512 ![1] bcast_S512_S1x512_1),
    TRef.nullary main_call3.cst_0 (constant S_ .f32 0x45800000#32),
    TRef.unary main_call3.cst_0 main_call3.v2 (broadcastInDim S1x512 ![] bcast_S_S1x512),
    TRef.binary main_call3.v1 main_call3.v2 main_call3.v3 Host.divf,
    TRef.unary main_call3.v3 main_call3.v4 (broadcastInDim S4096x512 ![0, 1] bcast_S1x512_S4096x512_0_1),
    TRef.binary (.of main_v26) main_call3.v4 main_call3.v5 subf,
    TRef.binary main_call3.v5 main_call3.v5 main_call3.v6 mulf,
    TRef.unary (.of main_c) main_call3.v7 (sitofp .f32),
    TRef.nullary main_call3.cst_1 (constant S_ .f32 0x45800000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S4096x512_S512_d0 h_S_),
    TRef.unary main_call3.v8 main_call3.v10 (broadcastInDim S512 ![] bcast_S_S512),
    TRef.binary main_call3.v9 main_call3.v10 main_call3.v11 Host.divf,
    TRef.nullary main_call3.cst_3 (constant S_ .f32 0x00000000#32),
    TRef.binary main_call3.v8 main_call3.cst_3 main_call3.v12 (cmpf .ogt),
    TRef.nullary main_call3.cst_4 (constant S_ .f32 0x7FC00000#32),
    TRef.unary main_call3.cst_4 main_call3.call0.v0 id,
    TRef.unary main_call3.call0.v0 main_call3.call0.v1 (broadcastInDim S512 ![] bcast_S_S512),
    TRef.ternary main_call3.v12 main_call3.v11 main_call3.call0.v1 main_call3.call0.v2 (fun p a b => select (broadcastInDim S512 ![] bcast_S_S512 p) a b),
    unary main_v29 main_v31 (broadcastInDim S1x512 ![1] bcast_S512_S1x512_1),
    unary main_v31 main_v32 (broadcastInDim S4096x512 ![0, 1] bcast_S1x512_S4096x512_0_1),
    binary main_v26 main_v32 main_v33 subf,
    nullary main_cst_7 (constant S_ .f32 0x3727C5AC#32),
    unary main_cst_7 main_v34 (broadcastInDim S512 ![] bcast_S_S512),
    binary main_v30 main_v34 main_v35 addf,
    unary main_v35 main_v36 Host.sqrt,
    unary main_v36 main_v37 (broadcastInDim S1x512 ![1] bcast_S512_S1x512_1),
    unary main_v37 main_v38 (broadcastInDim S4096x512 ![0, 1] bcast_S1x512_S4096x512_0_1),
    binary main_v33 main_v38 main_v39 Host.divf,
    unary main_arg7 main_v40 (broadcastInDim S1x512 ![1] bcast_S512_S1x512_1),
    unary main_v40 main_v41 (broadcastInDim S4096x512 ![0, 1] bcast_S1x512_S4096x512_0_1),
    binary main_v39 main_v41 main_v42 mulf,
    unary main_arg8 main_v43 (broadcastInDim S1x512 ![1] bcast_S512_S1x512_1),
    unary main_v43 main_v44 (broadcastInDim S4096x512 ![0, 1] bcast_S1x512_S4096x512_0_1),
    binary main_v42 main_v44 main_v45 addf,
    nullary main_cst_8 (constant S_ .f32 0x00000000#32),
    unary main_cst_8 main_v46 (broadcastInDim S4096x512 ![] bcast_S_S4096x512),
    binary main_v45 main_v46 main_v47 (cmpf .ogt),
    nullary main_cst_9 (constant S_ .f32 0x3C23D70A#32) ]

abbrev l3 : List (HloOp τ sig (Elt F)) :=
  [ unary main_cst_9 main_v48 (broadcastInDim S4096x512 ![] bcast_S_S4096x512),
    binary main_v48 main_v45 main_v49 mulf,
    TRef.ternary (.of main_v47) (.of main_v45) (.of main_v49) main_call4.v0 select ]

abbrev l4 : List (HloOp τ sig (Elt F)) :=
  [ binary main_v50 main_arg9 main_v51 (fun l r => Host.dotGeneral dot_S4096x512_S512x2000_S4096x2000_1_0_0_1_n_n none l r),
    unary main_arg10 main_v52 (broadcastInDim S1x2000 ![1] bcast_S2000_S1x2000_1),
    unary main_v52 main_v53 (broadcastInDim S4096x2000 ![0, 1] bcast_S1x2000_S4096x2000_0_1),
    binary main_v51 main_v53 main_v54 addf,
    TRef.nullary main_call5.cst (constant S_ .f32 0x00000000#32),
    TRef.unary main_call5.cst main_call5.v0 (broadcastInDim S4096x2000 ![] bcast_S_S4096x2000),
    TRef.binary (.of main_v54) main_call5.v0 main_call5.v1 maximumf,
    TRef.unary main_call5.cst main_call5.v2 (broadcastInDim S4096x2000 ![] bcast_S_S4096x2000),
    TRef.binary (.of main_v54) main_call5.v2 main_call5.v3 subf,
    TRef.binary main_call5.v3 main_call5.v3 main_call5.v4 (cmpf .une),
    TRef.unary main_call5.cst main_call5.v5 (broadcastInDim S4096x2000 ![] bcast_S_S4096x2000),
    TRef.binary (.of main_v54) main_call5.v5 main_call5.v6 addf,
    TRef.unary main_call5.v3 main_call5.v7 Host.absf,
    TRef.unary main_call5.v7 main_call5.v8 Host.negf,
    TRef.unary main_call5.v8 main_call5.v9 Host.exp,
    TRef.unary main_call5.v9 main_call5.v10 Host.log1p,
    TRef.binary main_call5.v1 main_call5.v10 main_call5.v11 addf,
    TRef.ternary main_call5.v4 main_call5.v6 main_call5.v11 main_call5.v12 select,
    nullary main_cst_10 (constant S_ .f32 0x3727C5AC#32),
    nullary main_cst_11 (constant S_ .f32 0x49742400#32),
    TRef.unary (.of main_cst_10) main_call6.v0 id,
    TRef.unary main_call6.v0 main_call6.v1 (broadcastInDim S4096x2000 ![] bcast_S_S4096x2000),
    TRef.binary main_call6.v1 (.of main_v55) main_call6.v2 maximumf,
    TRef.unary (.of main_cst_11) main_call6.v3 id,
    TRef.unary main_call6.v3 main_call6.v4 (broadcastInDim S4096x2000 ![] bcast_S_S4096x2000),
    TRef.binary main_call6.v4 main_call6.v2 main_call6.v5 minimumf ]

abbrev l5 : List (HloOp τ sig (Elt F)) :=
  [ binary main_v50 main_arg11 main_v57 (fun l r => Host.dotGeneral dot_S4096x512_S512x2000_S4096x2000_1_0_0_1_n_n none l r),
    unary main_arg12 main_v58 (broadcastInDim S1x2000 ![1] bcast_S2000_S1x2000_1),
    unary main_v58 main_v59 (broadcastInDim S4096x2000 ![0, 1] bcast_S1x2000_S4096x2000_0_1),
    binary main_v57 main_v59 main_v60 addf,
    unary main_v60 main_v61 Host.exp,
    nullary main_cst_12 (constant S_ .f32 0x3727C5AC#32),
    nullary main_cst_13 (constant S_ .f32 0x49742400#32),
    TRef.unary (.of main_cst_12) main_call7.v0 id,
    TRef.unary main_call7.v0 main_call7.v1 (broadcastInDim S4096x2000 ![] bcast_S_S4096x2000),
    TRef.binary main_call7.v1 (.of main_v61) main_call7.v2 maximumf,
    TRef.unary (.of main_cst_13) main_call7.v3 id,
    TRef.unary main_call7.v3 main_call7.v4 (broadcastInDim S4096x2000 ![] bcast_S_S4096x2000),
    TRef.binary main_call7.v4 main_call7.v2 main_call7.v5 minimumf ]

abbrev l6 : List (HloOp τ sig (Elt F)) :=
  [ unary main_arg13 main_v63 (broadcastInDim S1x2000 ![1] bcast_S2000_S1x2000_1),
    unary main_v63 main_v64 (broadcastInDim S4096x2000 ![0, 1] bcast_S1x2000_S4096x2000_0_1),
    binary main_v60 main_v64 main_v65 mulf,
    unary main_arg14 main_v66 (broadcastInDim S1x2000 ![1] bcast_S2000_S1x2000_1),
    unary main_v66 main_v67 (broadcastInDim S4096x2000 ![0, 1] bcast_S1x2000_S4096x2000_0_1),
    binary main_v65 main_v67 main_v68 addf,
    unary main_v68 main_v69 Host.negf,
    unary main_v69 main_v70 Host.exp,
    nullary main_cst_14 (constant S_ .f32 0x3F800000#32),
    unary main_cst_14 main_v71 (broadcastInDim S4096x2000 ![] bcast_S_S4096x2000),
    binary main_v71 main_v70 main_v72 addf,
    nullary main_cst_15 (constant S_ .f32 0x3F800000#32),
    unary main_cst_15 main_v73 (broadcastInDim S4096x2000 ![] bcast_S_S4096x2000),
    binary main_v73 main_v72 main_v74 Host.divf ]

abbrev ops_p0 : List (HloOp τ sig (Elt F)) := l0 ++ (l1 ++ l2)
abbrev ops_p1 : List (HloOp τ sig (Elt F)) := l3 ++ (l4 ++ (l5 ++ l6))
abbrev ops : List (HloOp τ sig (Elt F)) := ops_p0 ++ ops_p1

theorem main_eq (c : Dev nD) : main (F := F) c = seq ops := by
  rw [ops, seq_append]; rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  repeat' apply And.intro
  all_goals simp only [List.Forall, nullary_bufs_sub, unary_bufs_sub, binary_bufs_sub, ternary_bufs_sub]

-- The stretches of the line, and the buffers each writes.
def st : ℕ → List (HloOp τ sig (Elt Ideal))
  | 0 => l0 | 1 => l1 | 2 => l2 | 3 => l3 | 4 => l4 | 5 => l5 | 6 => l6 | _ => []
noncomputable def stW : ℕ → List (Ref sig .tc)
  | 0 => [main_v0, main_v1, main_cst, main_v2, main_v3, main_cst_0, main_v4, main_v5, main_call0.v0.ref, main_v7, main_v8, main_cst_1, main_v9, main_v10, main_cst_2, main_v11, main_v12, main_call1.v0.ref, main_v14, main_v15, main_cst_3, main_v16, main_v17, main_cst_4, main_v18, main_v19, main_call2.v0.ref]
  | 1 => [main_v21, main_v22, main_v23, main_v24, main_v25, main_v26]
  | 2 => [main_cst_5, main_v27, main_cst_6, main_v28, main_v29, main_c, main_call3.cst.ref, main_call3.v0.ref, main_call3.v1.ref, main_call3.cst_0.ref, main_call3.v2.ref, main_call3.v3.ref, main_call3.v4.ref, main_call3.v5.ref, main_call3.v6.ref, main_call3.v7.ref, main_call3.cst_1.ref, main_call3.v8.ref, main_call3.cst_2.ref, main_call3.v9.ref, main_call3.v10.ref, main_call3.v11.ref, main_call3.cst_3.ref, main_call3.v12.ref, main_call3.cst_4.ref, main_call3.call0.v0.ref, main_call3.call0.v1.ref, main_call3.call0.v2.ref, main_v31, main_v32, main_v33, main_cst_7, main_v34, main_v35, main_v36, main_v37, main_v38, main_v39, main_v40, main_v41, main_v42, main_v43, main_v44, main_v45, main_cst_8, main_v46, main_v47, main_cst_9]
  | 3 => [main_v48, main_v49, main_call4.v0.ref]
  | 4 => [main_v51, main_v52, main_v53, main_v54, main_call5.cst.ref, main_call5.v0.ref, main_call5.v1.ref, main_call5.v2.ref, main_call5.v3.ref, main_call5.v4.ref, main_call5.v5.ref, main_call5.v6.ref, main_call5.v7.ref, main_call5.v8.ref, main_call5.v9.ref, main_call5.v10.ref, main_call5.v11.ref, main_call5.v12.ref, main_cst_10, main_cst_11, main_call6.v0.ref, main_call6.v1.ref, main_call6.v2.ref, main_call6.v3.ref, main_call6.v4.ref, main_call6.v5.ref]
  | 5 => [main_v57, main_v58, main_v59, main_v60, main_v61, main_cst_12, main_cst_13, main_call7.v0.ref, main_call7.v1.ref, main_call7.v2.ref, main_call7.v3.ref, main_call7.v4.ref, main_call7.v5.ref]
  | 6 => [main_v63, main_v64, main_v65, main_v66, main_v67, main_v68, main_v69, main_v70, main_cst_14, main_v71, main_v72, main_cst_15, main_v73, main_v74]
  | _ => []

-- An operation whose one written buffer is listed writes within the list.
theorem sub_of_mem {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

theorem st_writes : ∀ k, (st k).Forall fun op => op.writes ⊆ ((stW k).map (Proc.devRef (τ := τ) .tc)).toFinset
  | 0 | 1 | 2 | 3 | 4 | 5 | 6 => by
    repeat' apply And.intro
    all_goals exact sub_of_mem (by decide)
  | _ + 7 => trivial

-- The contents after the first k stretches.
def val (V0 : Valuation τ sig (Elt Ideal)) : ℕ → Valuation τ sig (Elt Ideal)
  | 0 => V0
  | k + 1 => after (st k) (val V0 k)

-- A buffer none of the stretches j … k − 1 writes holds after k stretches what it held after j.
theorem keep (V0 : Valuation τ sig (Elt Ideal)) {r : Ref sig .tc} {j k : ℕ} (hjk : j ≤ k)
    (h : ∀ i, i < k → j ≤ i → r ∉ stW i) : val V0 k (Proc.devRef .tc r) = val V0 j (Proc.devRef .tc r) := by
  induction k, hjk using Nat.le_induction with
  | base => rfl
  | succ k hk ih =>
    exact (after_of_writes_sub _ _ (st_writes k) (h k k.lt_succ_self hk)).trans (ih fun i hi => h i (hi.trans k.lt_succ_self))

abbrev args : List (Ref sig .tc) := [main_arg0, main_arg1, main_arg2, main_arg3, main_arg4, main_arg5, main_arg6, main_arg7, main_arg8, main_arg9, main_arg10, main_arg11, main_arg12, main_arg13, main_arg14]

theorem arg_unwritten : ∀ i, ∀ r ∈ args, r ∉ stW i
  | 0 | 1 | 2 | 3 | 4 | 5 | 6 => by decide
  | _ + 7 => fun _ _ => List.not_mem_nil

-- No stretch writes an argument.
theorem val_arg (V0 : Valuation τ sig (Elt Ideal)) (k : ℕ) {r : Ref sig .tc} (hr : r ∈ args) :
    val V0 k (no_index (Proc.devRef .tc r)) = V0 (Proc.devRef .tc r) :=
  keep V0 k.zero_le fun i _ _ => arg_unwritten i r hr

variable (V0 : Valuation τ sig (Elt Ideal))

theorem val1_v13 : val V0 1 (no_index (Proc.devRef .tc main_v13)) = v13 V0 := by
  show after l0 V0 _ = _
  simp only [l0]
  after_results_simp
  rfl
theorem val1_v20 : val V0 1 (no_index (Proc.devRef .tc main_v20)) = v20 V0 := by
  show after l0 V0 _ = _
  simp only [l0]
  after_results_simp
  rfl
theorem val2_v22 : val V0 2 (no_index (Proc.devRef .tc main_v22)) = v22 V0 := by
  show after l1 (val V0 1) _ = _
  simp only [l1]
  after_results_simp
  simp only [val1_v13] <;> rfl
theorem val2_v26 : val V0 2 (no_index (Proc.devRef .tc main_v26)) = v26 V0 := by
  show after l1 (val V0 1) _ = _
  simp only [l1]
  after_results_simp
  simp (disch := decide) only [val1_v13, val_arg] <;> rfl
theorem val4_v50 : val V0 4 (no_index (Proc.devRef .tc main_v50)) = v50 V0 := by
  show after l3 (after l2 (val V0 2)) _ = _
  simp only [l2, l3]
  after_results_simp
  simp (disch := decide) only [val2_v26, val_arg] <;> rfl
theorem val5_v56 : val V0 5 (no_index (Proc.devRef .tc main_v56)) = v56 V0 := by
  show after l4 (val V0 4) _ = _
  simp only [l4]
  after_results_simp
  simp (disch := decide) only [val4_v50, val_arg] <;> rfl
theorem val5_v50 : val V0 5 (no_index (Proc.devRef .tc main_v50)) = v50 V0 :=
  (keep V0 (j := 4) (by decide) (by decide)).trans (val4_v50 V0)
theorem val6_v60 : val V0 6 (no_index (Proc.devRef .tc main_v60)) = v60 V0 := by
  show after l5 (val V0 5) _ = _
  simp only [l5]
  after_results_simp
  simp (disch := decide) only [val5_v50, val_arg] <;> rfl
theorem val6_v62 : val V0 6 (no_index (Proc.devRef .tc main_v62)) = v62 V0 := by
  show after l5 (val V0 5) _ = _
  simp only [l5]
  after_results_simp
  simp (disch := decide) only [val5_v50, val_arg] <;> rfl
theorem val7_v74 : val V0 7 (no_index (Proc.devRef .tc main_v74)) = v74 V0 := by
  show after l6 (val V0 6) _ = _
  simp only [l6]
  after_results_simp
  simp (disch := decide) only [val6_v60, val_arg] <;> rfl

theorem after_ops : after (ops (F := Ideal)) V0 = val V0 7 := by
  simp only [ops, ops_p0, ops_p1, after_append]
  rfl

-- A buffer not written after stretch j ends the line with what it held then.
theorem fin_of {r : Ref sig .tc} {j : ℕ} {x : (Proc.devRef (τ := τ) .tc r).ty.Contents (Elt Ideal)}
    (hx : val V0 j (Proc.devRef .tc r) = x) (hj : j ≤ 7) (hw : ∀ i, i < 7 → j ≤ i → r ∉ stW i) :
    after (ops (F := Ideal)) V0 (Proc.devRef .tc r) = x :=
  ((congrFun (after_ops V0) _).trans (keep V0 hj hw)).trans hx

theorem fin_arg {r : Ref sig .tc} (hr : r ∈ args) : after (ops (F := Ideal)) V0 (Proc.devRef .tc r) = V0 (Proc.devRef .tc r) :=
  (congrFun (after_ops V0) _).trans (val_arg V0 7 hr)

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v22) = res_v22 m c
      ∧ r.2.mem ((c.tc : Thread nD τ).loc main_v13) = res_v13 m c
      ∧ r.2.mem ((c.tc : Thread nD τ).loc main_v20) = res_v20 m c
      ∧ r.2.mem ((c.tc : Thread nD τ).loc main_v50) = res_v50 m c
      ∧ r.2.mem ((c.tc : Thread nD τ).loc main_v74) = res_v74 m c
      ∧ r.2.mem ((c.tc : Thread nD τ).loc main_v56) = res_v56 m c
      ∧ r.2.mem ((c.tc : Thread nD τ).loc main_v62) = res_v62 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c =>
    ⟨(h c _).trans (fin_of _ (val2_v22 _) (by decide) (by decide)), (h c _).trans (fin_of _ (val1_v13 _) (by decide) (by decide)),
      (h c _).trans (fin_of _ (val1_v20 _) (by decide) (by decide)), (h c _).trans (fin_of _ (val4_v50 _) (by decide) (by decide)),
      (h c _).trans (fin_of _ (val7_v74 _) (by decide) (by decide)), (h c _).trans (fin_of _ (val5_v56 _) (by decide) (by decide)),
      (h c _).trans (fin_of _ (val6_v62 _) (by decide) (by decide)),
      (h c _).trans (fin_arg _ (by decide)), (h c _).trans (fin_arg _ (by decide)), (h c _).trans (fin_arg _ (by decide)), (h c _).trans (fin_arg _ (by decide)), (h c _).trans (fin_arg _ (by decide)), (h c _).trans (fin_arg _ (by decide)), (h c _).trans (fin_arg _ (by decide)), (h c _).trans (fin_arg _ (by decide)), (h c _).trans (fin_arg _ (by decide)), (h c _).trans (fin_arg _ (by decide)), (h c _).trans (fin_arg _ (by decide)), (h c _).trans (fin_arg _ (by decide)), (h c _).trans (fin_arg _ (by decide)), (h c _).trans (fin_arg _ (by decide)), (h c _).trans (fin_arg _ (by decide))⟩)
    (run_seq scopedRefs_eq scopedSems_eq defs main (fun _ => ops) main_eq (fun _ => ops_sub) m ρ)

end Cert.ReferenceIdeal.RefRun

end
-- ==== Proof.Algebra.lean ====
import proofs.«141970_g2173253451805_cont_8to1_1923_2_alg».proof.Proof.Spec

noncomputable section

namespace Cert.Spec

open Idealize.ShloMosaic Idealize.ShloMosaic.ValueIdx

theorem z0_val : z0 = 0 := by
  simp [z0, Ideal.ofBits, Ideal.ieee]

theorem cN_val : cN = ((4096 : ℝ) : EReal) := by
  simp [cN, Ideal.ofBits, Ideal.ieee, -EReal.coe_mul]; norm_num

theorem ceps_val : ∃ r : ℝ, 0 < r ∧ ceps = (r : EReal) := by
  refine ⟨_, ?_, by simp [ceps, Ideal.ofBits, Ideal.ieee, -EReal.coe_mul]; rfl⟩
  positivity

theorem c001_val : ∃ r : ℝ, c001 = (r : EReal) := by
  exact ⟨_, by simp [c001, Ideal.ofBits, Ideal.ieee, -EReal.coe_mul]; rfl⟩

theorem coe_sum {ι : Type*} (s : Finset ι) (g : ι → ℝ) :
    ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- Over the reals the centred second moment is E[g²] − (E g)². -/
theorem var_identity {ι : Type*} (s : Finset ι) (g : ι → ℝ) (n : ℝ) (hn : n ≠ 0) (hcard : (s.card : ℝ) = n) :
    (∑ i ∈ s, g i * g i) * (1 / n) - (∑ i ∈ s, g i) * (1 / n) * ((∑ i ∈ s, g i) * (1 / n))
      = (∑ i ∈ s, (g i - (∑ i ∈ s, g i) * (1 / n)) * (g i - (∑ i ∈ s, g i) * (1 / n))) * (1 / n) := by
  set S := ∑ i ∈ s, g i with hS
  have hdev : ∑ i ∈ s, (g i - S * (1 / n)) * (g i - S * (1 / n))
      = ∑ i ∈ s, g i * g i - 2 * (S * (1 / n)) * S + n * ((S * (1 / n)) * (S * (1 / n))) := by
    have hsq : ∀ i, (g i - S * (1 / n)) * (g i - S * (1 / n))
        = g i * g i - 2 * (S * (1 / n)) * g i + (S * (1 / n)) * (S * (1 / n)) := fun i => by ring
    simp only [hsq]
    rw [Finset.sum_add_distrib, Finset.sum_sub_distrib, ← Finset.mul_sum, Finset.sum_const, nsmul_eq_mul, hcard]
  rw [hdev]; field_simp; ring

theorem dev_nonneg {ι : Type*} (s : Finset ι) (g : ι → ℝ) (m n : ℝ) (hn : 0 < n) :
    0 ≤ (∑ i ∈ s, (g i - m) * (g i - m)) * (1 / n) :=
  mul_nonneg (Finset.sum_nonneg fun i _ => mul_self_nonneg _) (by positivity)

theorem bn_entry (g : Fin 4096 → ℝ) (x : ℝ) :
    ((x : EReal) - Ideal.div (∑ i, (g i : EReal)) cN)
        * Ideal.rsqrt (Ideal.div (∑ i, (g i : EReal) * (g i : EReal)) cN
            - Ideal.div (∑ i, (g i : EReal)) cN * Ideal.div (∑ i, (g i : EReal)) cN + ceps)
      = Ideal.div ((x : EReal) - Ideal.div (∑ i, (g i : EReal)) cN)
          (Ideal.sqrt (Ideal.div (∑ i, ((g i : EReal) - Ideal.div (∑ i, (g i : EReal)) cN)
              * ((g i : EReal) - Ideal.div (∑ i, (g i : EReal)) cN)) cN + ceps)) := by
  obtain ⟨e, he, hce⟩ := ceps_val
  have h4 : (4096 : ℝ) ≠ 0 := by norm_num
  rw [hce, cN_val]
  simp only [Ideal.div_coe h4, coe_sum, ← EReal.coe_mul, ← EReal.coe_sub, ← EReal.coe_add]
  rw [var_identity Finset.univ g 4096 h4 (by simp)]
  have hy : 0 < (∑ i, (g i - (∑ i, g i) * (1 / 4096)) * (g i - (∑ i, g i) * (1 / 4096))) * (1 / 4096) + e :=
    add_pos_of_nonneg_of_pos (dev_nonneg _ _ _ _ (by norm_num)) he
  rw [Ideal.rsqrt_coe, Ideal.sqrt_coe, if_neg (not_lt.2 hy.le), if_neg hy.ne', if_neg (not_lt.2 hy.le),
    Ideal.div_coe (Real.sqrt_ne_zero'.2 hy)]
  simp only [one_div]

/-- On real entries the two normalisations agree: the variance identity, and x / √v = x · v^(−1/2) for v > 0. -/
theorem bn_eq (h : A2 4096 512) (hr : AllReal h) (gam bet : Fin 512 → EReal) :
    bnK h (csum h) (csumsq h) gam bet = bnR h gam bet := by
  choose f hf using hr
  funext j
  have key := bn_entry (fun i => f (ix2 i (j 1))) (f j)
  simp only [bnK, bnR, csum, csumsq, hf]
  rw [key]

theorem mm_real {a k b : ℕ} (x : A2 a k) (w : A2 k b) (hx : AllReal x) (hw : AllReal w) : AllReal (mm x w) := by
  choose f hf using hx
  choose g hg using hw
  intro j
  exact ⟨∑ l : Fin k, f (ix2 (j 0) l) * g (ix2 l (j 1)), by simp only [mm, hf, hg, ← EReal.coe_mul, coe_sum]⟩

theorem leaky1_real (r : ℝ) : ∃ q : ℝ, leaky1 (r : EReal) = (q : EReal) := by
  obtain ⟨c, hc⟩ := c001_val
  unfold leaky1 Scalar.select
  split
  · exact ⟨r, rfl⟩
  · exact ⟨c * r, by rw [hc, EReal.coe_mul]⟩

theorem leaky_real {a b : ℕ} (x : A2 a b) (hx : AllReal x) : AllReal (leaky x) := by
  intro j
  obtain ⟨r, hr⟩ := hx j
  obtain ⟨q, hq⟩ := leaky1_real r
  exact ⟨q, by rw [leaky, hr, hq]⟩

theorem dense_real (mu : A2 4096 128) (fw : A2 128 512) (fb : Fin 512 → EReal) (hmu : AllReal mu) (hfw : AllReal fw)
    (hfb : ∀ j, ∃ r : ℝ, fb j = (r : EReal)) : AllReal (dense mu fw fb) := by
  intro j
  obtain ⟨p, hp⟩ := mm_real mu fw hmu hfw j
  obtain ⟨q, hq⟩ := hfb (j 1)
  exact ⟨p + q, by rw [dense, hp, hq, EReal.coe_add]⟩

/-- Sums and products of reals are real, so the dense layer on mu has real entries when the inputs do. -/
theorem HH_real (a : Args) (hx : AllReal a.x) (hadj : AllReal a.adj) (hw1 : AllReal a.w1) (hg2 : AllReal a.g2)
    (hfw : AllReal a.fw) (hfb : ∀ j, ∃ r : ℝ, a.fb j = (r : EReal)) : AllReal a.HH := by
  have h1 : AllReal a.h1 := leaky_real _ (mm_real _ _ hadj (mm_real _ _ hx hw1))
  have hmu : AllReal a.MU := leaky_real _ (mm_real _ _ hadj (mm_real _ _ h1 hg2))
  exact dense_real _ _ _ hmu hfw hfb

end Cert.Spec

end
-- ==== Proof.Ref.Read.lean ====
import proofs.«141970_g2173253451805_cont_8to1_1923_2_alg».proof.ReferenceIdeal
import proofs.«141970_g2173253451805_cont_8to1_1923_2_alg».proof.Proof.Spec
import proofs.«141970_g2173253451805_cont_8to1_1923_2_alg».proof.Proof.Algebra
import proofs.«141970_g2173253451805_cont_8to1_1923_2_alg».proof.Proof.Ref.Terms
import Idealize.ShloMosaic.Lib.ValueIdx
import Idealize.ShloMosaic.Lib.IdealHost
import Idealize.ShloMosaic.Lib.ValueLayout
import Idealize.ShloMosaic.Lib.StackMember
import Idealize.ShloMosaic.Lib.Pipeline.Value
import Idealize.ShloMosaic.PureOps.Ideal.Laws

noncomputable section

namespace Cert.ReferenceIdeal.RefRead

open Idealize.ShloMosaic Idealize.SL.Sem Idealize.ShloMosaic.ValueIdx Cert.ReferenceIdeal Cert.ReferenceIdeal.RefRun
  Cert.ReferenceIdeal.Gen Idealize.ShloMosaic.TcCoe
open scoped BigOperators

theorem sitofp_i32_zero : (FloatOps.sitofp (F := Ideal) .f32 (0#32 : BitVec 32) : EReal) = 0 := by
  show ((((0#32 : BitVec 32).toInt : ℤ) : ℝ) : EReal) = 0
  simp

theorem cN_gt_z0 : Ideal.cmp .ogt Spec.cN Spec.z0 = 1#1 := by
  rw [Spec.z0_val, Spec.cN_val]
  have h : (0 : EReal) < ((4096 : ℝ) : EReal) := by exact_mod_cast (by norm_num : (0 : ℝ) < 4096)
  simp [Ideal.cmp, h]

-- No extended real differs from itself.
theorem cmp_une_self (d : EReal) : Ideal.cmp .une d d = 0#1 := by
  simp [Ideal.cmp]

theorem lit_apply {T : Shape} (h : S_.BroadcastsInDim T ![]) (w : BitVec 32) (j : T.Idx) :
    lit h w j = Ideal.ofBits .f32 w := by
  unfold lit
  rw [broadcastInDim_scalar_apply]; rfl

-- A vector laid out as the one row of a 1 × n matrix reads the vector at the column.
theorem bcastRow_apply {n : ℕ} (h : (⟨1, ![n]⟩ : Shape).BroadcastsInDim ⟨2, ![1, n]⟩ ![1])
    (v : (⟨1, ![n]⟩ : Shape).Idx → EReal) (u : Fin 1) (t : Fin n) :
    broadcastInDim ⟨2, ![1, n]⟩ ![1] h v (ix2 u t) = v (ix1 t) := by
  refine broadcastInDim_apply ![1] h v (ix2 u t) (ix1 t) ?_
  intro a
  match a with
  | ⟨0, _⟩ =>
    show t.val = if n = 1 then 0 else t.val
    split_ifs with hn
    · have := t.isLt; omega
    · rfl

-- A vector broadcast along the rows of an m × n matrix reads the vector at the column.
theorem bcastRows_apply {m n : ℕ} (h1 : (⟨1, ![n]⟩ : Shape).BroadcastsInDim ⟨2, ![1, n]⟩ ![1])
    (h2 : (⟨2, ![1, n]⟩ : Shape).BroadcastsInDim ⟨2, ![m, n]⟩ ![0, 1]) (v : (⟨1, ![n]⟩ : Shape).Idx → EReal)
    (j : (⟨2, ![m, n]⟩ : Shape).Idx) :
    broadcastInDim ⟨2, ![m, n]⟩ ![0, 1] h2 (broadcastInDim ⟨2, ![1, n]⟩ ![1] h1 v) j = v (ix1 (j 1)) := by
  obtain ⟨a, b, rfl⟩ : ∃ (a : Fin m) (b : Fin n), j = ix2 a b := ⟨j 0, j 1, eq_ix2 j⟩
  rw [broadcastInDim_oneRow_apply, bcastRow_apply]
  rfl

theorem rows512_apply (v : FVec Ideal S512 .f32) (j : S4096x512.Idx) : rows512 v j = v (ix1 (j 1)) :=
  bcastRows_apply _ _ v j

theorem rows2000_apply (v : FVec Ideal S2000 .f32) (j : S4096x2000.Idx) : rows2000 v j = v (ix1 (j 1)) :=
  bcastRows_apply _ _ v j

theorem leaky_stage {T : Shape} (h : S_.BroadcastsInDim T ![]) (x : FVec Ideal T .f32) :
    leakyT h x = fun j => Spec.leaky1 (x j) := by
  funext j
  unfold leakyT
  rw [select_apply, cmpf_apply, mulf_apply, lit_apply, lit_apply]
  rfl

theorem count_stage : cnt ix0 = Spec.cN := by
  unfold cnt
  rw [subf_apply, constant_apply, sitofp_apply]
  exact (congrArg (Spec.cN - ·) sitofp_i32_zero).trans (sub_zero _)

-- A plain product of an m × k by a k × n matrix is the sum over the contracted coordinate.
theorem mm_of_plain {m k n : ℕ} (l : Spec.A2 m k) (r : Spec.A2 k n) :
    (dg (DotDims.plain m k n) l r : Spec.A2 m n) = Spec.mm l r := by
  funext j
  obtain ⟨a, b, rfl⟩ : ∃ (a : Fin m) (b : Fin n), j = ix2 a b := ⟨j 0, j 1, eq_ix2 j⟩
  exact StackMember.dotGeneral_plain_apply none l r a b

theorem colsum_apply (x : FVec Ideal S4096x512 .f32) (j : Fin 512) : colsum x (ix1 j) = Spec.csum x j := by
  have hr : S4096x512.Reduces [0] S512 := by decide
  unfold colsum
  rw [hostReduceAdd_apply, Ideal.hostReduceAdd_single _ hr, eq_ix0 (Shape.Idx.first h_S_), constant_apply,
    Ideal.ofBits_zero_f32, zero_add]
  refine Finset.sum_congr rfl fun i _ => congrArg x ?_
  funext c
  match c with
  | ⟨0, _⟩ => rfl
  | ⟨1, _⟩ => rfl

theorem gram_stage (mu : FVec Ideal S4096x128 .f32) :
    (dg dot_S4096x128_S128x4096_S4096x4096_1_0_0_1_n_n mu
        (transpose S128x4096 [1, 0] mu transposes_S4096x128_S128x4096_1_0) : Spec.A2 4096 4096) = Spec.gram mu := by
  refine (mm_of_plain _ _).trans ?_
  funext j
  obtain ⟨a, b, rfl⟩ : ∃ (a : Fin 4096) (b : Fin 4096), j = ix2 a b := ⟨j 0, j 1, eq_ix2 j⟩
  refine Finset.sum_congr rfl fun l _ => ?_
  exact congrArg (mu (ix2 a l) * ·) (transpose_ix2_apply (a := 4096) (b := 128) mu transposes_S4096x128_S128x4096_1_0 l b)

theorem dense_stage (mu : FVec Ideal S4096x128 .f32) (fw : FVec Ideal S128x512 .f32) (fb : FVec Ideal S512 .f32) :
    (addf (dg dot_S4096x128_S128x512_S4096x512_1_0_0_1_n_n mu fw) (rows512 fb) : Spec.A2 4096 512)
      = Spec.dense mu fw (fun j => fb (ix1 j)) := by
  funext j
  rw [addf_apply, rows512_apply]
  exact congrArg (· + _) (congrFun (mm_of_plain mu fw) j)

theorem lin_stage (o : FVec Ideal S4096x512 .f32) (w : FVec Ideal S512x2000 .f32) (b : FVec Ideal S2000 .f32) :
    (linT o w b : Spec.A2 4096 2000) = Spec.lin o w (fun j => b (ix1 j)) := by
  funext j
  unfold linT
  rw [addf_apply, rows2000_apply]
  exact congrArg (· + _) (congrFun (mm_of_plain o w) j)

theorem meanT_apply (h : FVec Ideal S4096x512 .f32) (j : Fin 512) :
    meanT h (ix1 j) = Ideal.div (Spec.csum h j) Spec.cN := by
  unfold meanT
  rw [hostDivf_apply, colsum_apply, lit_apply]
  rfl

theorem devT_apply (h : FVec Ideal S4096x512 .f32) (i : Fin 4096) (j : Fin 512) :
    devT h (ix2 i j) = h (ix2 i j) - Ideal.div (Spec.csum h j) Spec.cN := by
  unfold devT
  rw [subf_apply, broadcastInDim_oneRow_apply, hostDivf_apply, bcastRow_apply, colsum_apply, lit_apply]
  rfl

-- The divisor 4096 − 0 is above zero, so the mean squared deviation is kept.
theorem varT_apply (h : FVec Ideal S4096x512 .f32) (j : Fin 512) :
    varT h (ix1 j) = Ideal.div (∑ i : Fin 4096, (h (ix2 i j) - Ideal.div (Spec.csum h j) Spec.cN)
      * (h (ix2 i j) - Ideal.div (Spec.csum h j) Spec.cN)) Spec.cN := by
  unfold varT
  rw [select_apply, broadcastInDim_scalar_apply, cmpf_apply, count_stage, constant_apply]
  have hc : FloatOps.cmpf (F := Ideal) .ogt Spec.cN (Ideal.ofBits .f32 0x00000000#32) = 1#1 := cN_gt_z0
  rw [hc, select_one, hostDivf_apply, colsum_apply, broadcastInDim_scalar_apply, count_stage]
  refine congrArg (Ideal.div · Spec.cN) (Finset.sum_congr rfl fun i _ => ?_)
  rw [mulf_apply, devT_apply]

theorem bn_stage (h : FVec Ideal S4096x512 .f32) (gam bet : FVec Ideal S512 .f32) :
    (leakyT bcast_S_S4096x512 (normT h gam bet) : Spec.A2 4096 512)
      = Spec.bnR h (fun j => gam (ix1 j)) (fun j => bet (ix1 j)) := by
  refine (leaky_stage _ _).trans (funext fun j => congrArg Spec.leaky1 ?_)
  unfold normT
  rw [addf_apply, mulf_apply, hostDivf_apply, subf_apply, rows512_apply, rows512_apply, rows512_apply, rows512_apply,
    meanT_apply h (j 1)]
  show Ideal.div _ (Ideal.sqrt (addf (varT h) (lit bcast_S_S512 0x3727C5AC#32) (ix1 (j 1)))) * _ + _ = _
  rw [addf_apply, varT_apply h (j 1), lit_apply]
  rfl

-- The branch for a difference that differs from itself is never taken.
theorem softplus_stage (y : FVec Ideal S4096x2000 .f32) : softplusT y = fun j => Spec.softplus1 (y j) := by
  funext j
  unfold softplusT
  rw [select_apply, cmpf_apply, show FloatOps.cmpf (F := Ideal) .une _ _ = 0#1 from cmp_une_self _, select_zero, addf_apply,
    maximumf_apply, lit_apply]
  show max (y j) Spec.z0 + Ideal.log1p (Ideal.exp (-(max (subf y (lit bcast_S_S4096x2000 0x00000000#32) j)
    (-(subf y (lit bcast_S_S4096x2000 0x00000000#32) j))))) = _
  rw [subf_apply, lit_apply]
  rfl

theorem clip_stage (y : FVec Ideal S4096x2000 .f32) : clipT y = fun j => Spec.clip1 (y j) := by
  funext j
  unfold clipT
  rw [minimumf_apply, maximumf_apply, lit_apply, lit_apply]
  rfl

theorem logistic_stage (z : FVec Ideal S4096x2000 .f32) : logisticT z = fun j => Ideal.logistic (z j) := by
  funext j
  unfold logisticT
  rw [hostDivf_apply, addf_apply, lit_apply, Ideal.ofBits_one_f32]
  rfl

noncomputable def argsR (m : (ℓ : Loc nD τ sig) → Buf (Elt Ideal) ℓ) (c : Dev nD) : Spec.Args where
  x := m ((c.tc : Thread nD τ).loc main_arg0)
  adj := m ((c.tc : Thread nD τ).loc main_arg1)
  w1 := m ((c.tc : Thread nD τ).loc main_arg2)
  g2 := m ((c.tc : Thread nD τ).loc main_arg3)
  g2s := m ((c.tc : Thread nD τ).loc main_arg4)
  fw := m ((c.tc : Thread nD τ).loc main_arg5)
  fb := fun j => m ((c.tc : Thread nD τ).loc main_arg6) (ix1 j)
  gam := fun j => m ((c.tc : Thread nD τ).loc main_arg7) (ix1 j)
  bet := fun j => m ((c.tc : Thread nD τ).loc main_arg8) (ix1 j)
  tw := m ((c.tc : Thread nD τ).loc main_arg9)
  tb := fun j => m ((c.tc : Thread nD τ).loc main_arg10) (ix1 j)
  mw := m ((c.tc : Thread nD τ).loc main_arg11)
  mb := fun j => m ((c.tc : Thread nD τ).loc main_arg12) (ix1 j)
  pw := fun j => m ((c.tc : Thread nD τ).loc main_arg13) (ix1 j)
  pb := fun j => m ((c.tc : Thread nD τ).loc main_arg14) (ix1 j)

variable (m : (ℓ : Loc nD τ sig) → Buf (Elt Ideal) ℓ) (c : Dev nD)

theorem v6_eq : (v6 (fun b => m (c, b)) : Spec.A2 4096 512) = (argsR m c).h1 :=
  (leaky_stage _ _).trans (congrArg Spec.leaky ((mm_of_plain _ _).trans (congrArg (Spec.mm _) (mm_of_plain _ _))))

theorem hd_eq (g : Spec.A2 512 128) : (hd (fun b => m (c, b)) g : Spec.A2 4096 128) = Spec.head (argsR m c).adj (argsR m c).h1 g :=
  (leaky_stage _ _).trans (congrArg Spec.leaky ((mm_of_plain _ _).trans
    (congrArg (Spec.mm _) ((mm_of_plain _ _).trans (congrArg (Spec.mm · g) (v6_eq m c))))))

theorem res_v13_eq : (res_v13 m c : Spec.A2 4096 128) = (argsR m c).MU := hd_eq m c _

theorem res_v20_eq : (res_v20 m c : Spec.A2 4096 128) = (argsR m c).LV := hd_eq m c _

theorem res_v22_eq : (res_v22 m c : Spec.A2 4096 4096) = Spec.gram (argsR m c).MU :=
  (gram_stage _).trans (congrArg Spec.gram (res_v13_eq m c))

theorem v26_eq : (v26 (fun b => m (c, b)) : Spec.A2 4096 512) = (argsR m c).HH :=
  (dense_stage _ _ _).trans (congrArg (Spec.dense · _ _) (res_v13_eq m c))

theorem res_v50_eq : (res_v50 m c : Spec.A2 4096 512) = (argsR m c).OUTR :=
  (bn_stage _ _ _).trans (congrArg (Spec.bnR · _ _) (v26_eq m c))

theorem lin_eq (w : FVec Ideal S512x2000 .f32) (b : FVec Ideal S2000 .f32) :
    (linT (v50 (fun b => m (c, b))) w b : Spec.A2 4096 2000) = Spec.lin (argsR m c).OUTR w (fun j => b (ix1 j)) :=
  (lin_stage _ _ _).trans (congrArg (Spec.lin · _ _) (res_v50_eq m c))

theorem res_v56_eq : (res_v56 m c : Spec.A2 4096 2000) = Spec.thetaOf (argsR m c).OUTR (argsR m c).tw (argsR m c).tb :=
  (clip_stage _).trans (funext fun j => congrArg Spec.clip1
    ((congrFun (softplus_stage _) j).trans (congrArg Spec.softplus1 (congrFun (lin_eq m c _ _) j))))

theorem res_v62_eq : (res_v62 m c : Spec.A2 4096 2000) = Spec.meanOf (argsR m c).OUTR (argsR m c).mw (argsR m c).mb :=
  (clip_stage _).trans (funext fun j => congrArg Spec.clip1 (congrArg Ideal.exp (congrFun (lin_eq m c _ _) j)))

theorem res_v74_eq : (res_v74 m c : Spec.A2 4096 2000)
    = Spec.piOf (argsR m c).OUTR (argsR m c).mw (argsR m c).mb (argsR m c).pw (argsR m c).pb := by
  refine (logistic_stage _).trans (funext fun j => congrArg Ideal.logistic ?_)
  rw [addf_apply, mulf_apply, rows2000_apply, rows2000_apply]
  exact congrArg (· * _ + _) (congrFun (lin_eq m c _ _) j)

end Cert.ReferenceIdeal.RefRead

end
-- ==== Proof.lean ====
import proofs.«141970_g2173253451805_cont_8to1_1923_2_alg».proof.Defs
import proofs.«141970_g2173253451805_cont_8to1_1923_2_alg».proof.Proof.Gen.Kernel
import proofs.«141970_g2173253451805_cont_8to1_1923_2_alg».proof.Proof.Gen.KernelIdeal
import proofs.«141970_g2173253451805_cont_8to1_1923_2_alg».proof.Proof.Gen.ReferenceIdeal
import proofs.«141970_g2173253451805_cont_8to1_1923_2_alg».proof.Proof.Gen.Pre_finite_inputs
import proofs.«141970_g2173253451805_cont_8to1_1923_2_alg».proof.Proof.K.Run
import proofs.«141970_g2173253451805_cont_8to1_1923_2_alg».proof.Proof.KI.Run
import proofs.«141970_g2173253451805_cont_8to1_1923_2_alg».proof.Proof.KI.Chain
import proofs.«141970_g2173253451805_cont_8to1_1923_2_alg».proof.Proof.KI.Finite
import proofs.«141970_g2173253451805_cont_8to1_1923_2_alg».proof.Proof.Ref.Run
import proofs.«141970_g2173253451805_cont_8to1_1923_2_alg».proof.Proof.Ref.Read
import proofs.«141970_g2173253451805_cont_8to1_1923_2_alg».proof.Proof.Algebra
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

/-- The reference's frame is its run with the results dropped. -/
theorem frame_ri : Cert.frame_ReferenceIdeal := fun m ρ _ =>
  (θ_run Cert.ReferenceIdeal.defs _ _).mono (fun _ h c => (h c).2.2.2.2.2.2.2) (Cert.ReferenceIdeal.RefRun.run m ρ)

theorem preserves : Cert.preserves_Kernel_KernelIdeal := trivial

open Cert.KernelIdeal.Hand in
/-- Both programs end at the same functions of the arguments; the two normalisations agree because every entry of the
    dense layer is a real number, which is where the precondition is used. -/
theorem algebraic : Cert.algebraic_KernelIdeal_ReferenceIdeal := by
  intro m ρ m' ρ' hpre hagree
  refine ⟨fun c => W7 m ρ c (Proc.devRef .tc Cert.KernelIdeal.main_v14),
    fun c => W7 m ρ c (Proc.devRef .tc Cert.KernelIdeal.main_v11),
    fun c => W7 m ρ c (Proc.devRef .tc Cert.KernelIdeal.main_v12),
    fun c => W7 m ρ c (Proc.devRef .tc Cert.KernelIdeal.main_v11),
    fun c => W7 m ρ c (Proc.devRef .tc Cert.KernelIdeal.main_v15_0),
    fun c => W7 m ρ c (Proc.devRef .tc Cert.KernelIdeal.main_v15_3),
    fun c => W7 m ρ c (Proc.devRef .tc Cert.KernelIdeal.main_v15_1),
    fun c => W7 m ρ c (Proc.devRef .tc Cert.KernelIdeal.main_v15_2), ?_, ?_⟩
  · refine (θ_run Cert.KernelIdeal.defs _ _).mono (fun r h c => ?_) (run_all m ρ)
    have u := fun b hb => h c _ (mem_uc b hb)
    have k := arg_kept m ρ h c
    exact ⟨u _ (by decide), u _ (by decide), u _ (by decide), u _ (by decide), u _ (by decide), u _ (by decide), u _ (by decide),
      u _ (by decide), k _ (by decide), k _ (by decide), k _ (by decide), k _ (by decide), k _ (by decide), k _ (by decide),
      k _ (by decide), k _ (by decide), k _ (by decide), k _ (by decide), k _ (by decide), k _ (by decide), k _ (by decide),
      k _ (by decide), k _ (by decide)⟩
  · refine (θ_run Cert.ReferenceIdeal.defs _ _).mono (fun r h c => ?_) (Cert.ReferenceIdeal.RefRun.run m' ρ')
    obtain ⟨h22, h13, h20, h50, h74, h56, h62, hargs⟩ := h c
    obtain ⟨e0, e1, e2, e3, e4, e5, e6, e7, e8, e9, e10, e11, e12, e13, e14⟩ := hagree c
    have ha : Cert.ReferenceIdeal.RefRead.argsR m' c = Cert.KernelIdeal.Val.argsK m c := by
      unfold Cert.ReferenceIdeal.RefRead.argsR Cert.KernelIdeal.Val.argsK
      rw [e0, e1, e2, e3, e4, e5, e6, e7, e8, e9, e10, e11, e12, e13, e14]
    obtain ⟨r0, r1, r2, r3, r5, r6⟩ := Cert.KernelIdeal.Val.finite_args m hpre c
    have hreal : Cert.Spec.AllReal (Cert.KernelIdeal.Val.argsK m c).HH :=
      Cert.Spec.HH_real _ r0 r1 r2 r3 r5 (fun j => r6 (ValueIdx.ix1 j))
    have hbn : (Cert.KernelIdeal.Val.argsK m c).OUTK = (Cert.KernelIdeal.Val.argsK m c).OUTR :=
      Cert.Spec.bn_eq _ hreal _ _
    refine ⟨h22.trans ?_, h13.trans ?_, h20.trans ?_, h13.trans ?_, h50.trans ?_, h74.trans ?_, h56.trans ?_, h62.trans ?_, hargs⟩
    · rw [Cert.ReferenceIdeal.RefRead.res_v22_eq, ha]; exact (Cert.KernelIdeal.Val.W7_v14 m ρ c).symm
    · rw [Cert.ReferenceIdeal.RefRead.res_v13_eq, ha]; exact (Cert.KernelIdeal.Val.W7_v11 m ρ c).symm
    · rw [Cert.ReferenceIdeal.RefRead.res_v20_eq, ha]; exact (Cert.KernelIdeal.Val.W7_v12 m ρ c).symm
    · rw [Cert.ReferenceIdeal.RefRead.res_v13_eq, ha]; exact (Cert.KernelIdeal.Val.W7_v11 m ρ c).symm
    · rw [Cert.ReferenceIdeal.RefRead.res_v50_eq, ha, ← hbn]; exact (Cert.KernelIdeal.Val.W7_v15_0 m ρ c).symm
    · rw [Cert.ReferenceIdeal.RefRead.res_v74_eq, ha, ← hbn]; exact (Cert.KernelIdeal.Val.W7_v15_3 m ρ c).symm
    · rw [Cert.ReferenceIdeal.RefRead.res_v56_eq, ha, ← hbn]; exact (Cert.KernelIdeal.Val.W7_v15_1 m ρ c).symm
    · rw [Cert.ReferenceIdeal.RefRead.res_v62_eq, ha, ← hbn]; exact (Cert.KernelIdeal.Val.W7_v15_2 m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
